-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x384 : Shape := ⟨2, ![10000, 384]⟩
abbrev S2x320000 : Shape := ⟨2, ![2, 320000]⟩
abbrev S256x384 : Shape := ⟨2, ![256, 384]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S10000x384 : S_.BroadcastsInDim S10000x384 (![] : Fin 0 → Fin S10000x384.rank)
  reducesTo_S10000x384_S_d0_1 : S10000x384.ReducesTo [0, 1] S_
  h_S_ : 0 < S_.numel
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_v47 : IVec S_ 1) (main_v49 : IVec S2x320000 1) (main_c_19 : IVec S_ 1) : IVec S_ 1 :=
  let main_v50 : IVec S_ 1 := (fun x v => Host.reduce IntOp.andi x v reducesTo_S2x320000_S_d0_1 h_S_) main_v49 main_c_19
  let main_v51 : IVec S_ 1 := andi main_v47 main_v50
  main_v51

def fn_part2 {F : FTy → Type} [FloatOps F] (main_arg1 : IVec S2x320000 32) (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg1 main_v44
  let main_c_17 : IVec S_ 1 := constantI S_ 1 1#1
  let main_v46 : IVec S_ 1 := (fun x v => Host.reduce IntOp.andi x v reducesTo_S2x320000_S_d0_1 h_S_) main_v45 main_c_17
  let main_v47 : IVec S_ 1 := andi main_v43 main_v46
  let main_c_18 : IVec S_ 32 := constantI S_ 32 10000#32
  let main_v48 : IVec S2x320000 32 := broadcastInDim S2x320000 ![] bcast_S_S2x320000 main_c_18
  let main_v49 : IVec S2x320000 1 := cmpi .slt main_arg1 main_v48
  let main_c_19 : IVec S_ 1 := constantI S_ 1 1#1
  fn_part3 (F := F) main_v47 main_v49 main_c_19

def fn_part1 {F : FTy → Type} [FloatOps F] (main_arg1 : IVec S2x320000 32) (main_arg5 : FVec F S128 .f32) (main_arg6 : FVec F S64x128 .f32) (main_arg7 : FVec F S64 .f32) (main_arg8 : FVec F S1x64 .f32) (main_arg9 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S10000x384 .f32) (main_arg1 : IVec S2x320000 32) (main_arg2 : FVec F S256x384 .f32) (main_arg3 : FVec F S256 .f32) (main_arg4 : FVec F S128x256 .f32) (main_arg5 : FVec F S128 .f32) (main_arg6 : FVec F S64x128 .f32) (main_arg7 : FVec F S64 .f32) (main_arg8 : FVec F S1x64 .f32) (main_arg9 : FVec F S1 .f32) : IVec S_ 1 :=
  let main_v0 : FVec F S10000x384 .f32 := Host.absf main_arg0
  let main_cst : FVec F S_ .f32 := constant S_ .f32 0x7F800000#32
  let main_v1 : FVec F S10000x384 .f32 := broadcastInDim S10000x384 ![] bcast_S_S10000x384 main_cst
  let main_v2 : IVec S10000x384 1 := cmpf .olt main_v0 main_v1
  let main_c : IVec S_ 1 := constantI S_ 1 1#1
  let main_v3 : IVec S_ 1 := (fun x v => Host.reduce IntOp.andi x v reducesTo_S10000x384_S_d0_1 h_S_) main_v2 main_c
  let main_v4 : FVec F S256x384 .f32 := Host.absf main_arg2
  let main_cst_0 : FVec F S_ .f32 := constant S_ .f32 0x7F800000#32
  let main_v5 : FVec F S256x384 .f32 := broadcastInDim S256x384 ![] bcast_S_S256x384 main_cst_0
  let main_v6 : IVec S256x384 1 := cmpf .olt main_v4 main_v5
  let main_c_1 : IVec S_ 1 := constantI S_ 1 1#1
  let main_v7 : IVec S_ 1 := (fun x v => Host.reduce IntOp.andi x v reducesTo_S256x384_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_arg6 main_arg7 main_arg8 main_arg9 main_v13 main_v16
-- ==== Kernel.lean ====
abbrev S10000x384 : Shape := ⟨2, ![10000, 384]⟩
abbrev S2x320000 : Shape := ⟨2, ![2, 320000]⟩
abbrev S256x384 : Shape := ⟨2, ![256, 384]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x320000 : Shape := ⟨2, ![1, 320000]⟩
abbrev S320000 : Shape := ⟨1, ![320000]⟩
abbrev S_ : Shape := ⟨0, ![]⟩
abbrev S10240 : Shape := ⟨1, ![10240]⟩
abbrev S320000x1 : Shape := ⟨2, ![320000, 1]⟩
abbrev S10240x1 : Shape := ⟨2, ![10240, 1]⟩
abbrev S10240x10240 : Shape := ⟨2, ![10240, 10240]⟩
abbrev S320000x2 : Shape := ⟨2, ![320000, 2]⟩
abbrev S10240x384 : Shape := ⟨2, ![10240, 384]⟩
abbrev S1x256 : Shape := ⟨2, ![1, 256]⟩
abbrev S10240x256 : Shape := ⟨2, ![10240, 256]⟩
abbrev S1024x384 : Shape := ⟨2, ![1024, 384]⟩
abbrev S1024x256 : Shape := ⟨2, ![1024, 256]⟩
abbrev S384x256 : Shape := ⟨2, ![384, 256]⟩
abbrev S1024x2048 : Shape := ⟨2, ![1024, 2048]⟩
abbrev S1024x1 : Shape := ⟨2, ![1024, 1]⟩
abbrev S2048x256 : Shape := ⟨2, ![2048, 256]⟩
abbrev S1x128 : Shape := ⟨2, ![1, 128]⟩
abbrev S1x1 : Shape := ⟨2, ![1, 1]⟩
abbrev S10240x128 : Shape := ⟨2, ![10240, 128]⟩
abbrev S1024x128 : Shape := ⟨2, ![1024, 128]⟩
abbrev S256x128 : Shape := ⟨2, ![256, 128]⟩
abbrev S128x64 : Shape := ⟨2, ![128, 64]⟩
abbrev S1024x64 : Shape := ⟨2, ![1024, 64]⟩
abbrev S64x1 : Shape := ⟨2, ![64, 1]⟩
abbrev S10000x128 : Shape := ⟨2, ![10000, 128]⟩
abbrev S10000x1 : Shape := ⟨2, ![10000, 1]⟩

abbrev nBuf : Space → Nat
  | .hbm => 64
  | .vmem => 34
  | .smem => 0
  | _ => 0

abbrev bufTy : (tb : Table) → Fin (tcTables nBuf tb) → BufTy
  | .hbm, ⟨0, _⟩ => ⟨S10000x384, .f32⟩
  | .hbm, ⟨1, _⟩ => ⟨S2x320000, .i32⟩
  | .hbm, ⟨2, _⟩ => ⟨S256x384, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .f32⟩
  | .hbm, ⟨15, _⟩ => ⟨S320000, .f32⟩
  | .hbm, ⟨16, _⟩ => ⟨S_, .f32⟩
  | .hbm, ⟨17, _⟩ => ⟨S10240, .f32⟩
  | .hbm, ⟨18, _⟩ => ⟨S320000x1, .i32⟩
  | .hbm, ⟨19, _⟩ => ⟨S10240, .f32⟩
  | .hbm, ⟨20, _⟩ => ⟨S_, .f32⟩
  | .hbm, ⟨21, _⟩ => ⟨S10240, .f32⟩
  | .hbm, ⟨22, _⟩ => ⟨S10240, .f32⟩
  | .hbm, ⟨23, _⟩ => ⟨S_, .f32⟩
  | .hbm, ⟨24, _⟩ => ⟨S10240, .f32⟩
  | .hbm, ⟨25, _⟩ => ⟨S10240, .f32⟩
  | .hbm, ⟨26, _⟩ => ⟨S10240x1, .f32⟩
  | .hbm, ⟨27, _⟩ => ⟨S_, .i32⟩
  | .hbm, ⟨28, _⟩ => ⟨S10240x10240, .i32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S320000x1, .i32⟩
  | .hbm, ⟨45, _⟩ => ⟨S320000x2, .i32⟩
  | .hbm, ⟨46, _⟩ => ⟨S_, .i32⟩
  | .hbm, ⟨47, _⟩ => ⟨S320000, .i32⟩
  | .hbm, ⟨48, _⟩ => ⟨S10240x10240, .i32⟩
  | .hbm, ⟨49, _⟩ => ⟨S10240x10240, .bf16⟩
  | .hbm, ⟨50, _⟩ => ⟨S_, .i32⟩
  | .hbm, ⟨51, _⟩ => ⟨S_, .f32⟩
  | .hbm, ⟨52, _⟩ => ⟨S10240x384, .f32⟩
  | .hbm, ⟨53, _⟩ => ⟨S1x256, .f32⟩
  | .hbm, ⟨54, _⟩ => ⟨S10240x256, .bf16⟩
  | .hbm, ⟨55, _⟩ => ⟨S10240x256, .bf16⟩
  | .hbm, ⟨56, _⟩ => ⟨S10240x256, .bf16⟩
  | .hbm, ⟨57, _⟩ => ⟨S1x128, .f32⟩
  | .hbm, ⟨58, _⟩ => ⟨S1x64, .f32⟩
  | .hbm, ⟨59, _⟩ => ⟨S1x1, .f32⟩
  | .hbm, ⟨60, _⟩ => ⟨S10240x128, .f32⟩
  | .hbm, ⟨61, _⟩ => ⟨S10240x1, .f32⟩
  | .hbm, ⟨62, _⟩ => ⟨S10000x128, .f32⟩
  | .hbm, ⟨63, _⟩ => ⟨S10000x1, .f32⟩
  | .local _ .vmem, ⟨0, _⟩ => ⟨S1024x384, .f32⟩
  | .local _ .vmem, ⟨1, _⟩ => ⟨S1024x384, .f32⟩
  | .local _ .vmem, ⟨2, _⟩ => ⟨S256x384, .f32⟩
  | .local _ .vmem, ⟨3, _⟩ => ⟨S1x256, .f32⟩
  | .local _ .vmem, ⟨4, _⟩ => ⟨S1024x256, .bf16⟩
  | .local _ .vmem, ⟨5, _⟩ => ⟨S1024x256, .bf16⟩
  | .local _ .vmem, ⟨6, _⟩ => ⟨S1024x2048, .bf16⟩
  | .local _ .vmem, ⟨7, _⟩ => ⟨S1024x2048, .bf16⟩
  | .local _ .vmem, ⟨8, _⟩ => ⟨S10240x256, .bf16⟩
  | .local _ .vmem, ⟨9, _⟩ => ⟨S1024x1, .f32⟩
  | .local _ .vmem, ⟨10, _⟩ => ⟨S1024x1, .f32⟩
  | .local _ .vmem, ⟨11, _⟩ => ⟨S1024x256, .bf16⟩
  | .local _ .vmem, ⟨12, _⟩ => ⟨S1024x256, .bf16⟩
  | .local _ .vmem, ⟨13, _⟩ => ⟨S1024x256, .f32⟩
  | .local _ .vmem, ⟨14, _⟩ => ⟨S1024x2048, .bf16⟩
  | .local _ .vmem, ⟨15, _⟩ => ⟨S1024x2048, .bf16⟩
  | .local _ .vmem, ⟨16, _⟩ => ⟨S10240x256, .bf16⟩
  | .local _ .vmem, ⟨17, _⟩ => ⟨S1024x1, .f32⟩
  | .local _ .vmem, ⟨18, _⟩ => ⟨S1024x1, .f32⟩
  | .local _ .vmem, ⟨19, _⟩ => ⟨S1024x256, .bf16⟩
  | .local _ .vmem, ⟨20, _⟩ => ⟨S1024x256, .bf16⟩
  | .local _ .vmem, ⟨21, _⟩ => ⟨S1024x256, .f32⟩
  | .local _ .vmem, ⟨22, _⟩ => ⟨S1024x256, .bf16⟩
  | .local _ .vmem, ⟨23, _⟩ => ⟨S1024x256, .bf16⟩
  | .local _ .vmem, ⟨24, _⟩ => ⟨S128x256, .f32⟩
  | .local _ .vmem, ⟨25, _⟩ => ⟨S1x128, .f32⟩
  | .local _ .vmem, ⟨26, _⟩ => ⟨S64x128, .f32⟩
  | .local _ .vmem, ⟨27, _⟩ => ⟨S1x64, .f32⟩
  | .local _ .vmem, ⟨28, _⟩ => ⟨S1x64, .f32⟩
  | .local _ .vmem, ⟨29, _⟩ => ⟨S1x1, .f32⟩
  | .local _ .vmem, ⟨30, _⟩ => ⟨S1024x128, .f32⟩
  | .local _ .vmem, ⟨31, _⟩ => ⟨S1024x128, .f32⟩
  | .local _ .vmem, ⟨32, _⟩ => ⟨S1024x1, .f32⟩
  | .local _ .vmem, ⟨33, _⟩ => ⟨S1024x1, .f32⟩
  | _, _ => ⟨S10000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38_0 : Ref sig .tc := ⟨.hbm, 60, rfl⟩
abbrev main_v38_1 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg7_1 : Ref sig .tc := ⟨.vmem, 31, rfl⟩
abbrev cc3_stg8_0 : Ref sig .tc := ⟨.vmem, 32, rfl⟩
abbrev cc3_stg8_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem7_1 : DmaSem sig := 29
abbrev cc3_sem8_0 : DmaSem sig := 30
abbrev cc3_sem8_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![10, 5], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def k1_mult2 (i : grid1.Coords) : BitVec 32 :=
  let arg0 : BitVec 32 := BitVec.ofNat 32 (i 0).val
  let c1024_i32 : BitVec 32 := 1024#32
  let v19 : BitVec 32 := Scalar.muli arg0 c1024_i32
  v19
def k1_off2 (i : grid1.Coords) : Fin 2 → Nat :=
  let arg0 : BitVec 32 := BitVec.ofNat 32 (i 0).val
  let c1024_i32 : BitVec 32 := 1024#32
  let v19 : BitVec 32 := Scalar.muli arg0 c1024_i32
  let v20 : BitVec 32 := v19
  let v21 : Index := Scalar.indexCast v20
  let c0_8 : Index := 0#32
  ![v21.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![10, 5], ![false, false]⟩

def k2_mult1 (i : grid2.Coords) : BitVec 32 :=
  let arg1 : BitVec 32 := BitVec.ofNat 32 (i 1).val
  let c2048_i32 : BitVec 32 := 2048#32
  let v5 : BitVec 32 := Scalar.muli arg1 c2048_i32
  v5
def k2_off1 (i : grid2.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def k2_mult2 (i : grid2.Coords) : BitVec 32 :=
  let arg0 : BitVec 32 := BitVec.ofNat 32 (i 0).val
  let c1024_i32 : BitVec 32 := 1024#32
  let v19 : BitVec 32 := Scalar.muli arg0 c1024_i32
  v19
def k2_off2 (i : grid2.Coords) : Fin 2 → Nat :=
  let arg0 : BitVec 32 := BitVec.ofNat 32 (i 0).val
  let c1024_i32 : BitVec 32 := 1024#32
  let v19 : BitVec 32 := Scalar.muli arg0 c1024_i32
  let v20 : BitVec 32 := v19
  let v21 : Index := Scalar.indexCast v20
  let c0_8 : Index := 0#32
  ![v21.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10240x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1024x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1024x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10240 : S_.BroadcastsInDim S10240 (![] : Fin 0 → Fin S10240.rank)
  bcast_S320000_S320000x1_0 : S320000.BroadcastsInDim S320000x1 (![0] : Fin 1 → Fin S320000x1.rank)
  shapeCasts_S10240_S10240x1 : S10240.ShapeCasts S10240x1
  bcast_S_S10240x10240 : S_.BroadcastsInDim S10240x10240 (![] : Fin 0 → Fin S10240x10240.rank)
  concatenates_S320000x1_S320000x1_S320000x2_d1 : Shape.Concatenates [S320000x1, S320000x1] S320000x2 1
  pads_S10000x384_S10240x384_02400_000 : S10000x384.Pads (![0, 0] : Fin 2 → Nat) ![240, 0] ![0, 0] S10240x384
  h_S_ : 0 < S_.numel
  shapeCasts_S256_S1x256 : S256.ShapeCasts S1x256
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  bitsLt_bf16_f32 : FTy.bits .bf16 < FTy.bits .f32
  inb_S256x384_S256x384_0_0 : ∀ a, (![0, 0] : Fin 2 → Nat) a + S256x384.size a ≤ S256x384.size a
  h_S256x384 : 0 < S256x384.numel
  transposes_S256x384_p1_0_S384x256 : S256x384.Transposes [1, 0] S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  iota_S1024x256_d0_w32 : S1024x256.Iotas .tc 32 [0]
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  h_S2048x256 : 0 < S2048x256.numel
  shapeCasts_S2048x256_S2048x256 : S2048x256.ShapeCasts S2048x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  shapeCasts_S128_S1x128 : S128.ShapeCasts S1x128
  shapeCasts_S64_S1x64 : S64.ShapeCasts S1x64
  shapeCasts_S1_S1x1 : S1.ShapeCasts S1x1
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  slices_S10240x128_S10000x128_0_0 : S10240x128.Slices ![0, 0] S10000x128
  slices_S10240x1_S10000x1_0_0 : S10240x1.Slices ![0, 0] S10000x1
  scatter_S10240_S320000x1_S320000_n_0_0_1_wf : ScatterDims.WF S10240 S320000x1 S320000 [] [0] [0] 1
  scatter_S10240x10240_S320000x2_S320000_n_01_01_1_wf : ScatterDims.WF S10240x10240 S320000x2 S320000 [] [0, 1] [0, 1] 1
  dot_S1024x384_S384x256_S1024x256_1_0_0_1_n_n_wf : DotDims.WF S1024x384 S384x256 S1024x256 [1] [0] [0] [1] [] []
  dot_S1024x2048_S2048x256_S1024x256_1_0_0_1_n_n_wf : DotDims.WF S1024x2048 S2048x256 S1024x256 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x384.size a ≤ S10240x384.size a
  hwx0_0 : ∀ i : grid0.Coords, EltTy.bits .f32 = 32 ∨ (Rect.block (s := S10240x384) S1024x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S256x384.size a
  hwx0_1 : ∀ i : grid0.Coords, EltTy.bits .f32 = 32 ∨ (Rect.block (s := S256x384) S256x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S10240x256.size a
  hwx0_3 : ∀ i : grid0.Coords, EltTy.bits .bf16 = 32 ∨ (Rect.block (s := S10240x256) S1024x256.size (cc0_transform_3 i) (hinb0_3 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x256.size a ≤ S10240x256.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x256.size a ≤ S10240x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x256.size a ≤ S10240x256.size a
  hwx1_1 : ∀ i : grid1.Coords, EltTy.bits .bf16 = 32 ∨ (Rect.block (s := S10240x256) S10240x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S10240x1.size a
  hwx1_2 : ∀ i : grid1.Coords, EltTy.bits .f32 = 32 ∨ (Rect.block (s := S10240x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S10240x256.size a
  hwx1_3 : ∀ i : grid1.Coords, EltTy.bits .bf16 = 32 ∨ (Rect.block (s := S10240x256) S1024x256.size (cc1_transform_3 i) (hinb1_3 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x256.size a ≤ S10240x256.size a
  k2_mult2_dvd : ∀ i : grid2.Coords, ∀ (k2_h2 : k2_cond2 i = 1#1), 1024 ∣ (k2_mult2 i).toNat
  k2_off2_inb : ∀ i : grid2.Coords, ∀ (k2_h2 : k2_cond2 i = 1#1), ∀ a, (k2_off2 i) a + S1024x256.size a ≤ S10240x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S10240x10240.size a
  hwx2_0 : ∀ i : grid2.Coords, EltTy.bits .bf16 = 32 ∨ (Rect.block (s := S10240x10240) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x256.size a ≤ S10240x256.size a
  hwx2_1 : ∀ i : grid2.Coords, EltTy.bits .bf16 = 32 ∨ (Rect.block (s := S10240x256) S10240x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S10240x1.size a
  hwx2_2 : ∀ i : grid2.Coords, EltTy.bits .f32 = 32 ∨ (Rect.block (s := S10240x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S10240x256.size a
  hwx2_3 : ∀ i : grid2.Coords, EltTy.bits .bf16 = 32 ∨ (Rect.block (s := S10240x256) S1024x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S10240x256.size a
  hwx3_0 : ∀ i : grid3.Coords, EltTy.bits .bf16 = 32 ∨ (Rect.block (s := S10240x256) S1024x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x128.size a ≤ S10240x128.size a
  hwx3_7 : ∀ i : grid3.Coords, EltTy.bits .f32 = 32 ∨ (Rect.block (s := S10240x128) S1024x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1024x1.size a ≤ S10240x1.size a
  hwx3_8 : ∀ i : grid3.Coords, EltTy.bits .f32 = 32 ∨ (Rect.block (s := S10240x1) S1024x1.size (cc3_transform_8 i) (hinb3_8 i)).WholeWords (EltTy.packing .f32)

variable [Facts₀]

def scatter_S10240_S320000x1_S320000_n_0_0_1 : ScatterDims S10240 S320000x1 S320000 where
  updateWindowDims := []
  insertedWindowDims := [0]
  scatterDimsToOperandDims := [0]
  indexVectorDim := 1
  wf := scatter_S10240_S320000x1_S320000_n_0_0_1_wf
def scatter_S10240x10240_S320000x2_S320000_n_01_01_1 : ScatterDims S10240x10240 S320000x2 S320000 where
  updateWindowDims := []
  insertedWindowDims := [0, 1]
  scatterDimsToOperandDims := [0, 1]
  indexVectorDim := 1
  wf := scatter_S10240x10240_S320000x2_S320000_n_01_01_1_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_v30) S1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10240x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v29) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10240x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v34) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v37) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v38_0) S1024x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v38_1) S1024x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S10000x384 : Shape := ⟨2, ![10000, 384]⟩
abbrev S2x320000 : Shape := ⟨2, ![2, 320000]⟩
abbrev S256x384 : Shape := ⟨2, ![256, 384]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S384x256 : Shape := ⟨2, ![384, 256]⟩
abbrev S10000x256 : Shape := ⟨2, ![10000, 256]⟩
abbrev S1x256 : Shape := ⟨2, ![1, 256]⟩
abbrev S_ : Shape := ⟨0, ![]⟩
abbrev S1x320000 : Shape := ⟨2, ![1, 320000]⟩
abbrev S320000 : Shape := ⟨1, ![320000]⟩
abbrev S10000 : Shape := ⟨1, ![10000]⟩
abbrev S320000x1 : Shape := ⟨2, ![320000, 1]⟩
abbrev S320000x256 : Shape := ⟨2, ![320000, 256]⟩
abbrev S10000x1 : Shape := ⟨2, ![10000, 1]⟩
abbrev S256x128 : Shape := ⟨2, ![256, 128]⟩
abbrev S10000x128 : Shape := ⟨2, ![10000, 128]⟩
abbrev S1x128 : Shape := ⟨2, ![1, 128]⟩
abbrev S128x64 : Shape := ⟨2, ![128, 64]⟩
abbrev S10000x64 : Shape := ⟨2, ![10000, 64]⟩
abbrev S64x1 : Shape := ⟨2, ![64, 1]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S10000x384, .f32⟩
  | .hbm, ⟨1, _⟩ => ⟨S2x320000, .i32⟩
  | .hbm, ⟨2, _⟩ => ⟨S256x384, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S384x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S1x320000, .i32⟩
  | .hbm, ⟨19, _⟩ => ⟨S320000, .i32⟩
  | .hbm, ⟨20, _⟩ => ⟨S1x320000, .i32⟩
  | .hbm, ⟨21, _⟩ => ⟨S320000, .i32⟩
  | .hbm, ⟨22, _⟩ => ⟨S_, .f32⟩
  | .hbm, ⟨23, _⟩ => ⟨S320000, .f32⟩
  | .hbm, ⟨24, _⟩ => ⟨S_, .f32⟩
  | .hbm, ⟨25, _⟩ => ⟨S10000, .f32⟩
  | .hbm, ⟨26, _⟩ => ⟨S320000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x256, .f32⟩
  | .hbm, ⟨43, _⟩ => ⟨S_, .f32⟩
  | .hbm, ⟨44, _⟩ => ⟨S10000x256, .f32⟩
  | .hbm, ⟨45, _⟩ => ⟨S320000x1, .i32⟩
  | .hbm, ⟨46, _⟩ => ⟨S10000x256, .f32⟩
  | .hbm, ⟨47, _⟩ => ⟨S_, .f32⟩
  | .hbm, ⟨48, _⟩ => ⟨S10000x256, .f32⟩
  | .hbm, ⟨49, _⟩ => ⟨S10000x256, .f32⟩
  | .hbm, ⟨50, _⟩ => ⟨S_, .f32⟩
  | .hbm, ⟨51, _⟩ => ⟨S10000x256, .f32⟩
  | .hbm, ⟨52, _⟩ => ⟨S10000x256, .f32⟩
  | .hbm, ⟨53, _⟩ => ⟨S10000x1, .f32⟩
  | .hbm, ⟨54, _⟩ => ⟨S10000x256, .f32⟩
  | .hbm, ⟨55, _⟩ => ⟨S10000x256, .f32⟩
  | .hbm, ⟨56, _⟩ => ⟨S10000x256, .f32⟩
  | .hbm, ⟨57, _⟩ => ⟨S_, .i32⟩
  | .hbm, ⟨58, _⟩ => ⟨S320000, .i32⟩
  | .hbm, ⟨59, _⟩ => ⟨S320000, .i1⟩
  | .hbm, ⟨60, _⟩ => ⟨S_, .i32⟩
  | .hbm, ⟨61, _⟩ => ⟨S320000, .i32⟩
  | .hbm, ⟨62, _⟩ => ⟨S320000, .i32⟩
  | .hbm, ⟨63, _⟩ => ⟨S320000, .i32⟩
  | .hbm, ⟨64, _⟩ => ⟨S320000x1, .i32⟩
  | .hbm, ⟨65, _⟩ => ⟨S320000x256, .f32⟩
  | .hbm, ⟨66, _⟩ => ⟨S_, .f32⟩
  | .hbm, ⟨67, _⟩ => ⟨S10000x256, .f32⟩
  | .hbm, ⟨68, _⟩ => ⟨S320000x1, .i32⟩
  | .hbm, ⟨69, _⟩ => ⟨S10000x256, .f32⟩
  | .hbm, ⟨70, _⟩ => ⟨S_, .f32⟩
  | .hbm, ⟨71, _⟩ => ⟨S10000x256, .f32⟩
  | .hbm, ⟨72, _⟩ => ⟨S10000x256, .f32⟩
  | .hbm, ⟨73, _⟩ => ⟨S_, .f32⟩
  | .hbm, ⟨74, _⟩ => ⟨S10000x256, .f32⟩
  | .hbm, ⟨75, _⟩ => ⟨S10000x256, .f32⟩
  | .hbm, ⟨76, _⟩ => ⟨S10000x1, .f32⟩
  | .hbm, ⟨77, _⟩ => ⟨S10000x256, .f32⟩
  | .hbm, ⟨78, _⟩ => ⟨S10000x256, .f32⟩
  | .hbm, ⟨79, _⟩ => ⟨S10000x256, .f32⟩
  | .hbm, ⟨80, _⟩ => ⟨S256x128, .f32⟩
  | .hbm, ⟨81, _⟩ => ⟨S10000x128, .f32⟩
  | .hbm, ⟨82, _⟩ => ⟨S1x128, .f32⟩
  | .hbm, ⟨83, _⟩ => ⟨S10000x128, .f32⟩
  | .hbm, ⟨84, _⟩ => ⟨S10000x128, .f32⟩
  | .hbm, ⟨85, _⟩ => ⟨S_, .f32⟩
  | .hbm, ⟨86, _⟩ => ⟨S10000x128, .f32⟩
  | .hbm, ⟨87, _⟩ => ⟨S10000x128, .f32⟩
  | .hbm, ⟨88, _⟩ => ⟨S128x64, .f32⟩
  | .hbm, ⟨89, _⟩ => ⟨S10000x64, .f32⟩
  | .hbm, ⟨90, _⟩ => ⟨S1x64, .f32⟩
  | .hbm, ⟨91, _⟩ => ⟨S10000x64, .f32⟩
  | .hbm, ⟨92, _⟩ => ⟨S10000x64, .f32⟩
  | .hbm, ⟨93, _⟩ => ⟨S_, .f32⟩
  | .hbm, ⟨94, _⟩ => ⟨S10000x64, .f32⟩
  | .hbm, ⟨95, _⟩ => ⟨S10000x64, .f32⟩
  | .hbm, ⟨96, _⟩ => ⟨S64x1, .f32⟩
  | .hbm, ⟨97, _⟩ => ⟨S10000x1, .f32⟩
  | .hbm, ⟨98, _⟩ => ⟨S1x1, .f32⟩
  | .hbm, ⟨99, _⟩ => ⟨S10000x1, .f32⟩
  | .hbm, ⟨100, _⟩ => ⟨S10000x1, .f32⟩
  | .hbm, ⟨101, _⟩ => ⟨S10000x1, .f32⟩
  | .hbm, ⟨102, _⟩ => ⟨S10000x1, .f32⟩
  | .hbm, ⟨103, _⟩ => ⟨S_, .f32⟩
  | .hbm, ⟨104, _⟩ => ⟨S10000x1, .f32⟩
  | .hbm, ⟨105, _⟩ => ⟨S10000x1, .f32⟩
  | .hbm, ⟨106, _⟩ => ⟨S_, .f32⟩
  | .hbm, ⟨107, _⟩ => ⟨S10000x1, .f32⟩
  | .hbm, ⟨108, _⟩ => ⟨S10000x1, .f32⟩
  | _, _ => ⟨S10000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]

class Facts₀ : Prop where
  transposes_S256x384_S384x256_1_0 : S256x384.Transposes [1, 0] S384x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  transposes_S1x64_S64x1_1_0 : S1x64.Transposes [1, 0] S64x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  dot_S10000x384_S384x256_S10000x256_1_0_0_1_n_n_wf : DotDims.WF S10000x384 S384x256 S10000x256 [1] [0] [0] [1] [] []
  scatter_S10000_S320000x1_S320000_n_0_0_1_wf : ScatterDims.WF S10000 S320000x1 S320000 [] [0] [0] 1
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x128_S10000x128_1_0_0_1_n_n_wf : DotDims.WF S10000x256 S256x128 S10000x128 [1] [0] [0] [1] [] []
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []

variable [Facts₀]

def dot_S10000x384_S384x256_S10000x256_1_0_0_1_n_n : DotDims S10000x384 S384x256 S10000x256 where
  lhsContracting := [1]
  rhsContracting := [0]
  lhsNonContracting := [0]
  rhsNonContracting := [1]
  lhsBatch := []
  rhsBatch := []
  wf := dot_S10000x384_S384x256_S10000x256_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.KI.R0.lean ====
import proofs.«424795_j47278999994618_2_alg».proof.Proof.Gen.KernelIdeal.Launch
import proofs.«424795_j47278999994618_2_alg».proof.Proof.Gen.KernelIdeal.Skeleton
import proofs.«424795_j47278999994618_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S1024x384 := Rect.unit (s := S1024x384) ![0, 0] S1024x384.size inb_S1024x384_S1024x384_0_0
abbrev rW : Rect S256x384 := Rect.unit (s := S256x384) ![0, 0] S256x384.size inb_S256x384_S256x384_0_0
abbrev rB : Rect S1x256 := Rect.unit (s := S1x256) ![0, 0] S1x256.size inb_S1x256_S1x256_0_0

theorem off00 : (![0, 0] : Fin 2 → Nat) = fun _ => 0 := by
  funext a; match a with | ⟨0, _⟩ => rfl | ⟨1, _⟩ => rfl

set_option maxHeartbeats 1000000 in

theorem fc1_step (c : Dev nD) (E : Set ℕ) (i : grid0.Coords)
    (a1 : Memref sig .tc .vmem S1024x384 .f32) (h1 : a1.IsWhole) (a2 : Memref sig .tc .vmem S256x384 .f32) (h2 : a2.IsWhole)
    (a3 : Memref sig .tc .vmem S1x256 .f32) (h3 : a3.IsWhole) (a4 : Memref sig .tc .vmem S1024x256 .bf16) (h4 : a4.IsWhole)
    (x : Vec F S1024x384 .f32) (W : Vec F S256x384 .f32) (b : Vec F S1x256 .f32) (K : PUnit → sProp 𝕄) :
    iprop(owns (c : Thread nD τ) a1 fullShare x ∗ owns (c : Thread nD τ) a2 fullShare W ∗ owns (c : Thread nD τ) a3 fullShare b
        ∗ (∃ d, owns (c : Thread nD τ) a4 fullShare d)
        ∗ (iprop(owns (c : Thread nD τ) a1 fullShare x ∗ owns (c : Thread nD τ) a2 fullShare W ∗ owns (c : Thread nD τ) a3 fullShare b
            ∗ owns (c : Thread nD τ) a4 fullShare (k0_pay1 i x W b)) -∗ K ⟨⟩))
      ⊢ wp frame (wpE (defs₀ (F := F)) Variants.none c none) E (cc0__fc1_kernel i a1 h1 a2 h2 a3 h3 a4 h4) K := by
  simp only [cc0__fc1_kernel_eq_skeleton]; unfold cc0__fc1_kernel_skel
  unfold owns
  iintro ⟨⟨%f1, %e1, H1⟩, ⟨%f2, %e2, H2⟩, ⟨%f3, %e3, H3⟩, ⟨%d4, %f4, -, H4⟩, Hk⟩
  subst e1; subst e2; subst e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro

  have eX : View.readAt (Elt F) a1.view rX.toLoadRect f1 = View.read (Elt F) a1.view f1 :=
    (View.readAt_eq_ld a1.view f1 rX).trans (View.ld_unit_zero off00 inb_S1024x384_S1024x384_0_0 _)
  have eW : View.readAt (Elt F) a2.view rW.toLoadRect f2 = View.read (Elt F) a2.view f2 :=
    (View.readAt_eq_ld a2.view f2 rW).trans (View.ld_unit_zero off00 inb_S256x384_S256x384_0_0 _)
  have eB : View.readAt (Elt F) a3.view rB.toLoadRect f3 = View.read (Elt F) a3.view f3 :=
    (View.readAt_eq_ld a3.view f3 rB).trans (View.ld_unit_zero off00 inb_S1x256_S1x256_0_0 _)
  rw [View.read_writes_eq_canon _ _ _ (fun y => ⟨_, List.mem_singleton_self _, View.mem_set_unit_zero off00 inb_S1024x256_S1024x256_0_0 y⟩),
    View.canon_unit_zero off00, eX, eW, eB]

def dat0 (c : Dev nD) : Dat τ (Elt F) Unit ℕ (UR sig nD τ) ℕ cfg0 c where
  A w := V c (Pipeline.arrRef spec0 w)
  after w t := match w with
    | ⟨0, _⟩ => iblk0 V c 0 t | ⟨1, _⟩ => iblk0 V c 1 t | ⟨2, _⟩ => iblk0 V c 2 t
    | ⟨3, _⟩ => k0_pay1 (grid0.coords t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay1 (grid0.coords t) (iblk0 V c 0 t) (iblk0 V c 1 t) (iblk0 V c 2 t) := by
  dsimp only [dat0]

theorem found0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem found0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem found0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

def stepPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def stepPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_step0 (c : Dev nD) (t : Fin cfg0.N) :
    stepPre0 V c t ⊢ wp frame (wpE (defs₀ (F := F)) Variants.none c none) Set.univ (bodyAt0 t) (fun _ => stepPost0 V c t) := by
  unfold stepPre0 stepPost0 bodyAt0
  simp only [found0_0, found0_1, found0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (fc1_step c Set.univ (grid0.coords t) _ _ _ _ _ _ _ _ (iblk0 V c 0 t) (iblk0 V c 1 t) (iblk0 V c 2 t) _)
  iframe H0 H1 H2
  isplitl [H3]; · iexists _; iexact H3
  iintro ⟨H0, H1, H2, H3⟩
  isplitl [HΦ]; · iexact HΦ
  iframe

theorem body_obligation0 (c : Dev nD) : BodyObligation (dat0 (F := F) V c) (defs₀ (F := F)) Variants.none () Set.univ := fun t => by
  rw [bigSep_W0, bigSep_W0]
  exact sound_step0 V c t

end Cert.KernelIdeal.Hand

end
-- ==== Proof.KI.R1.lean ====
import proofs.«424795_j47278999994618_2_alg».proof.Proof.Gen.KernelIdeal.Launch
import proofs.«424795_j47278999994618_2_alg».proof.Proof.Gen.KernelIdeal.Skeleton
import proofs.«424795_j47278999994618_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rs1 (i : grid1.Coords) : Rect S10240x256 := Rect.unit (s := S10240x256) (k1_off1 i) S2048x256.size (k1_off1_inb i)

abbrev rt1 (i : grid1.Coords) (h : k1_cond2 i = 1#1) : Rect S10240x256 := Rect.unit (s := S10240x256) (k1_off2 i) S1024x256.size (k1_off2_inb i h)

def hsAt1 (c : Dev nD) (t : Fin cfg1.N) : Vec F S2048x256 .bf16 :=
  View.ld (S := S10240x256) (iblk1 V c 1 t) (rs1 (grid1.coords t))

def htAt1 (c : Dev nD) (t : Fin cfg1.N) (h : k1_cond2 (grid1.coords t) = 1#1) : Vec F S1024x256 .bf16 :=
  View.ld (S := S10240x256) (iblk1 V c 1 t) (rt1 (grid1.coords t) h)

theorem coord1_0 : ∀ t : Fin cfg1.N, ((grid1.coords t) 0).val = t.val / 5 :=
  (by decide +kernel : ∀ t : Fin grid1.N, ((grid1.coords t) 0).val = t.val / 5)
theorem coord1_1 : ∀ t : Fin cfg1.N, ((grid1.coords t) 1).val = t.val % 5 :=
  (by decide +kernel : ∀ t : Fin grid1.N, ((grid1.coords t) 1).val = t.val % 5)

theorem index1_1 : ∀ (t : Fin cfg1.N) (a : Fin 2), win1_1.index t a = 0 :=
  (by decide +kernel : ∀ (t : Fin grid1.N) (a : Fin 2), win1_1.index t a = 0)

theorem hsAt1_apply (c : Dev nD) (t : Fin cfg1.N) (y : S2048x256.Idx) :
    hsAt1 V c t y = V c main_v32 (ValueIdx.ix2 (⟨2048 * (t.val % 5) + (y 0).val, by have h0 : (y 0).val < 2048 := (y 0).isLt; have hN : t.val < 50 := lt_of_lt_of_eq t.isLt N_1; omega⟩ : Fin 10240) (⟨(y 1).val, (y 1).isLt⟩ : Fin 256)) := by
  unfold hsAt1 iblk1
  show V c main_v32 (((cfg1.win 1).blk t).view.emb ((rs1 (grid1.coords t)).idx y)) = _
  refine congrArg (V c main_v32) (funext fun a => Fin.ext ?_)
  have e1 := k1_off1_eq (grid1.coords t)
  have e2 := coord1_1 t
  match a with
  | ⟨0, _⟩ =>
    show win1_1.index t (0 : Fin 2) * 10240 + 1 * (k1_off1 (grid1.coords t) 0 + 1 * (y 0).val) = 2048 * (t.val % 5) + (y 0).val
    have e3 : k1_off1 (grid1.coords t) 0 = 2048 * (t.val % 5) := by rw [e1, ← e2]; rfl
    rw [index1_1 t 0, e3]; omega
  | ⟨1, _⟩ =>
    show win1_1.index t (1 : Fin 2) * 256 + 1 * (k1_off1 (grid1.coords t) 1 + 1 * (y 1).val) = (y 1).val
    have e3 : k1_off1 (grid1.coords t) 1 = 0 := by rw [e1]; rfl
    rw [index1_1 t 1, e3]; omega

theorem htAt1_apply (c : Dev nD) (t : Fin cfg1.N) (h : k1_cond2 (grid1.coords t) = 1#1) (y : S1024x256.Idx) :
    htAt1 V c t h y = V c main_v32 (ValueIdx.ix2 (⟨1024 * (t.val / 5) + (y 0).val, by have h0 : (y 0).val < 1024 := (y 0).isLt; have hN : t.val < 50 := lt_of_lt_of_eq t.isLt N_1; omega⟩ : Fin 10240) (⟨(y 1).val, (y 1).isLt⟩ : Fin 256)) := by
  unfold htAt1 iblk1
  show V c main_v32 (((cfg1.win 1).blk t).view.emb ((rt1 (grid1.coords t) h).idx y)) = _
  refine congrArg (V c main_v32) (funext fun a => Fin.ext ?_)
  have e1 := k1_off2_eq (grid1.coords t)
  have e2 := coord1_0 t
  match a with
  | ⟨0, _⟩ =>
    show win1_1.index t (0 : Fin 2) * 10240 + 1 * (k1_off2 (grid1.coords t) 0 + 1 * (y 0).val) = 1024 * (t.val / 5) + (y 0).val
    have e3 : k1_off2 (grid1.coords t) 0 = 1024 * (t.val / 5) := by rw [e1, ← e2]; rfl
    rw [index1_1 t 0, e3]; omega
  | ⟨1, _⟩ =>
    show win1_1.index t (1 : Fin 2) * 256 + 1 * (k1_off2 (grid1.coords t) 1 + 1 * (y 1).val) = (y 1).val
    have e3 : k1_off2 (grid1.coords t) 1 = 0 := by rw [e1]; rfl
    rw [index1_1 t 1, e3]; omega

def accAt1 (c : Dev nD) : (n : ℕ) → n < cfg1.N → Vec F S1024x256 .f32
  | 0, hn => k1_pay2 (iblk1 V c 0 ⟨0, hn⟩) (hsAt1 V c ⟨0, hn⟩) k1_pay1
  | n + 1, hn =>
    if (n + 1) % 5 = 0 then k1_pay2 (iblk1 V c 0 ⟨n + 1, hn⟩) (hsAt1 V c ⟨n + 1, hn⟩) k1_pay1
    else k1_pay2 (iblk1 V c 0 ⟨n + 1, hn⟩) (hsAt1 V c ⟨n + 1, hn⟩) (accAt1 c n (Nat.lt_of_succ_lt hn))

theorem accAt1_first (c : Dev nD) (t : Fin cfg1.N) (h : t.val % 5 = 0) :
    accAt1 V c t.val t.isLt = k1_pay2 (iblk1 V c 0 t) (hsAt1 V c t) k1_pay1 := by
  obtain ⟨n, hn⟩ := t
  cases n with
  | zero => rfl
  | succ n => exact (if_pos h).trans rfl

theorem accAt1_next (c : Dev nD) (t : Fin cfg1.N) (h : t.val % 5 ≠ 0) :
    accAt1 V c t.val t.isLt = k1_pay2 (iblk1 V c 0 t) (hsAt1 V c t) (accAt1 V c (t.val - 1) (Nat.lt_of_le_of_lt (Nat.sub_le _ _) t.isLt)) := by
  obtain ⟨n, hn⟩ := t
  cases n with
  | zero => exact absurd (Nat.zero_mod _) h
  | succ n => exact (if_neg h).trans rfl

abbrev cond1_0 (i : grid1.Coords) : Prop := (Scalar.cmpi .ne (Scalar.extui (Scalar.cmpi .eq (BitVec.ofNat 32 (i 1).val) 0#32)) 0#32) = 1#1

theorem hfirst1 : ∀ t : Fin cfg1.N, cond1_0 (grid1.coords t) ↔ t.val % 5 = 0 :=
  (by decide +kernel : ∀ t : Fin grid1.N, cond1_0 (grid1.coords t) ↔ t.val % 5 = 0)

theorem hlast1 (t : Fin cfg1.N) : k1_cond2 (grid1.coords t) = 1#1 ↔ t.val % 5 = 4 :=
  (by decide +kernel : ∀ t : Fin grid1.N, k1_cond2 (grid1.coords t) = 1#1 ↔ t.val % 5 = 4) t

theorem idleAt1_3 : ∀ t : Fin cfg1.N, ¬k1_cond2 (grid1.coords t) = 1#1 → cfg1.idle 3 (grid1.coords t) = true := by decide +kernel
theorem noFlush1_3 : ∀ t : Fin cfg1.N, ¬k1_cond2 (grid1.coords t) = 1#1 → (cfg1.win 3).flush t = false := by decide +kernel

theorem liveAt1_3 : ∀ t : Fin cfg1.N, k1_cond2 (grid1.coords t) = 1#1 → cfg1.idle 3 (grid1.coords t) = false := by decide +kernel

def outAt1 (c : Dev nD) (t : Fin cfg1.N) : Vec F S1024x256 .bf16 :=
  if hc : k1_cond2 (grid1.coords t) = 1#1 then k1_pay3 (htAt1 V c t hc) (accAt1 V c t.val t.isLt) (iblk1 V c 2 t)
  else fun _ => Classical.choice (Elt.nonempty F _)

abbrev scM1 : Memref sig .tc .vmem S1024x256 .f32 := Memref.whole cc1_scratch0

def PhiS1 (c : Dev nD) : (n : ℕ) → n ≤ cfg1.N → sProp 𝕄
  | 0, _ => Pipeline.ΦA spec1 c
  | n + 1, hn => iprop(owns (c : Thread nD τ) scM1 fullShare (accAt1 V c n hn) ∗ Pipeline.scopedRestBut spec1 c [cc1_scratch0] ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (accAt1 V c n hn) ∗ Pipeline.scopedRestBut spec1 c [cc1_scratch0] ∗ (∃ r, prngReg c r)) := rfl

theorem PhiS1_pos (c : Dev nD) (n : ℕ) (h : n ≤ cfg1.N) (hz : n ≠ 0) :
    PhiS1 V c n h = iprop(owns (c : Thread nD τ) scM1 fullShare (accAt1 V c (n - 1) (by omega)) ∗ Pipeline.scopedRestBut spec1 c [cc1_scratch0] ∗ (∃ r, prngReg c r)) := by
  cases n with
  | zero => exact absurd rfl hz
  | succ n => rfl

theorem PhiA1_eq (c : Dev nD) :
    (Pipeline.ΦA spec1 c : sProp 𝕄)
      = iprop(iprop((∃ d, owns (c : Thread nD τ) scM1 fullShare d) ∗ Pipeline.scopedRestBut spec1 c [cc1_scratch0]) ∗ (∃ r, prngReg c r)) := by
  unfold Pipeline.ΦA; rw [scopedRest1_split]; simp only [scM1, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) : (dat1 V c).after 3 t = outAt1 V c t := by dsimp only [dat1]

theorem after1_3 (c : Dev nD) (t : Fin cfg1.N) (hc : k1_cond2 (grid1.coords t) = 1#1) :
    (dat1 V c).after 3 t = k1_pay3 (htAt1 V c t hc) (accAt1 V c t.val t.isLt) (iblk1 V c 2 t) := by
  rw [after1_3']; unfold outAt1; rw [dif_pos hc]

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem hz2 : (![0, 0] : Fin 2 → ℕ) = fun _ => 0 := by funext a; fin_cases a <;> rfl

theorem read_writes_unit_zero {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

set_option maxHeartbeats 1000000 in

theorem run1_A (c : Dev nD) (i : grid1.Coords)
    (arg2 : Memref sig .tc .vmem S1024x2048 .bf16) (harg2 : arg2.IsWhole)
    (arg3 : Memref sig .tc .vmem S10240x256 .bf16) (harg3 : arg3.IsWhole)
    (arg4 : Memref sig .tc .vmem S1024x1 .f32) (harg4 : arg4.IsWhole)
    (arg5 : Memref sig .tc .vmem S1024x256 .bf16) (harg5 : arg5.IsWhole)
    (arg6 : Memref sig .tc .vmem S1024x256 .f32) (harg6 : arg6.IsWhole)
    (hc0 : cond1_0 i) (hc1 : ¬k1_cond2 i = 1#1)
    (a : Vec F S1024x2048 .bf16) (hw : Vec F S10240x256 .bf16)
    (E : Set ℕ) (K : PUnit → sProp 𝕄) :
    iprop(owns (c : Thread nD τ) arg2 fullShare a ∗ owns (c : Thread nD τ) arg3 fullShare hw ∗ (∃ d, owns (c : Thread nD τ) arg6 fullShare d)
        ∗ (iprop(owns (c : Thread nD τ) arg2 fullShare a ∗ owns (c : Thread nD τ) arg3 fullShare hw
            ∗ owns (c : Thread nD τ) arg6 fullShare (k1_pay2 a (View.ld hw (rs1 i)) k1_pay1)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_unit_zero _ _ hz2]
  simp only [View.readAt_eq_ld, Memref.IsWhole.read_unread, View.ld_unit_zero (S := S1024x2048) hz2, View.ld_unit_zero (S := S1024x256) hz2, View.ld_unit_zero (S := S1024x1) hz2, View.readCov_unit_zero (S := S1024x256) _ hz2]

set_option maxHeartbeats 1000000 in

theorem run1_B (c : Dev nD) (i : grid1.Coords)
    (arg2 : Memref sig .tc .vmem S1024x2048 .bf16) (harg2 : arg2.IsWhole)
    (arg3 : Memref sig .tc .vmem S10240x256 .bf16) (harg3 : arg3.IsWhole)
    (arg4 : Memref sig .tc .vmem S1024x1 .f32) (harg4 : arg4.IsWhole)
    (arg5 : Memref sig .tc .vmem S1024x256 .bf16) (harg5 : arg5.IsWhole)
    (arg6 : Memref sig .tc .vmem S1024x256 .f32) (harg6 : arg6.IsWhole)
    (hc0 : ¬cond1_0 i) (hc1 : ¬k1_cond2 i = 1#1)
    (a : Vec F S1024x2048 .bf16) (hw : Vec F S10240x256 .bf16) (xs : Vec F S1024x256 .f32)
    (E : Set ℕ) (K : PUnit → sProp 𝕄) :
    iprop(owns (c : Thread nD τ) arg2 fullShare a ∗ owns (c : Thread nD τ) arg3 fullShare hw ∗ owns (c : Thread nD τ) arg6 fullShare xs
        ∗ (iprop(owns (c : Thread nD τ) arg2 fullShare a ∗ owns (c : Thread nD τ) arg3 fullShare hw
            ∗ owns (c : Thread nD τ) arg6 fullShare (k1_pay2 a (View.ld hw (rs1 i)) xs)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [read_writes_unit_zero _ _ hz2]
  simp only [View.readAt_eq_ld, Memref.IsWhole.read_unread, View.ld_unit_zero (S := S1024x2048) hz2, View.ld_unit_zero (S := S1024x256) hz2, View.ld_unit_zero (S := S1024x1) hz2, View.readCov_unit_zero (S := S1024x256) _ hz2]

set_option maxHeartbeats 1000000 in

theorem run1_C (c : Dev nD) (i : grid1.Coords)
    (arg2 : Memref sig .tc .vmem S1024x2048 .bf16) (harg2 : arg2.IsWhole)
    (arg3 : Memref sig .tc .vmem S10240x256 .bf16) (harg3 : arg3.IsWhole)
    (arg4 : Memref sig .tc .vmem S1024x1 .f32) (harg4 : arg4.IsWhole)
    (arg5 : Memref sig .tc .vmem S1024x256 .bf16) (harg5 : arg5.IsWhole)
    (arg6 : Memref sig .tc .vmem S1024x256 .f32) (harg6 : arg6.IsWhole)
    (hc0 : ¬cond1_0 i) (hc1 : k1_cond2 i = 1#1)
    (a : Vec F S1024x2048 .bf16) (hw : Vec F S10240x256 .bf16) (iv : Vec F S1024x1 .f32) (xs : Vec F S1024x256 .f32)
    (E : Set ℕ) (K : PUnit → sProp 𝕄) :
    iprop(owns (c : Thread nD τ) arg2 fullShare a ∗ owns (c : Thread nD τ) arg3 fullShare hw ∗ owns (c : Thread nD τ) arg4 fullShare iv
        ∗ (∃ d, owns (c : Thread nD τ) arg5 fullShare d) ∗ owns (c : Thread nD τ) arg6 fullShare xs
        ∗ (iprop(owns (c : Thread nD τ) arg2 fullShare a ∗ owns (c : Thread nD τ) arg3 fullShare hw ∗ owns (c : Thread nD τ) arg4 fullShare iv
            ∗ owns (c : Thread nD τ) arg5 fullShare (k1_pay3 (View.ld hw (rt1 i hc1)) (k1_pay2 a (View.ld hw (rs1 i)) xs) iv)
            ∗ owns (c : Thread nD τ) arg6 fullShare (k1_pay2 a (View.ld hw (rs1 i)) xs)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [read_writes_unit_zero _ _ hz2]
    simp only [View.readAt_eq_ld, Memref.IsWhole.read_unread, View.ld_unit_zero (S := S1024x2048) hz2, View.ld_unit_zero (S := S1024x256) hz2, View.ld_unit_zero (S := S1024x1) hz2, View.readCov_unit_zero (S := S1024x256) _ hz2]
  iexists _; isplitr
  swap; · iexact HS
  ipureintro
  sl_unfold_run_names
  rw [read_writes_unit_zero _ _ hz2]
  simp only [View.readAt_eq_ld, Memref.IsWhole.read_unread, View.ld_unit_zero (S := S1024x2048) hz2, View.ld_unit_zero (S := S1024x256) hz2, View.ld_unit_zero (S := S1024x1) hz2, View.readCov_unit_zero (S := S1024x256) _ hz2]

abbrev ms1_0 (t : Fin cfg1.N) : Memref sig .tc .vmem S1024x2048 .bf16 := win1_0.stage (cfg1.slots t 0)
abbrev ms1_1 (t : Fin cfg1.N) : Memref sig .tc .vmem S10240x256 .bf16 := win1_1.stage (cfg1.slots t 1)
abbrev ms1_2 (t : Fin cfg1.N) : Memref sig .tc .vmem S1024x1 .f32 := win1_2.stage (cfg1.slots t 2)
abbrev ms1_3 (t : Fin cfg1.N) : Memref sig .tc .vmem S1024x256 .bf16 := win1_3.stage (cfg1.slots t 3)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  have hN : t.val < 50 := lt_of_lt_of_eq t.isLt (show cfg1.N = 50 from N_1)
  by_cases h0 : t.val % 5 = 0
  · have hc1 : ¬k1_cond2 (grid1.coords t) = 1#1 := fun h => by have := (hlast1 t).mp h; omega
    rw [Dat.leavesExact_idle (dat1 V c) 3 t (idleAt1_3 t hc1) (noFlush1_3 t hc1)]
    rw [accAt1_first V c t h0]; unfold hsAt1
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, H3⟩
      iapply (run1_A c (grid1.coords t) _ _ _ _ _ _ _ _ _ _ ((hfirst1 t).mpr h0) hc1 (iblk1 V c 0 t) (iblk1 V c 1 t) Set.univ _)
      iframe H0 H1 HS
      iintro ⟨H0, H1, HS⟩
      iframe
    · rw [PhiS1_castSucc V c t, PhiS1_pos V c _ _ hz]
      iintro ⟨⟨HS, HR, Hg⟩, Ho, ⟨%d0, H0⟩, ⟨%d1, H1⟩, ⟨%d2, H2⟩, H3⟩
      iapply (run1_A c (grid1.coords t) _ _ _ _ _ _ _ _ _ _ ((hfirst1 t).mpr h0) hc1 (iblk1 V c 0 t) (iblk1 V c 1 t) Set.univ _)
      iframe H0 H1
      isplitl [HS]; · iexists _; iexact HS
      iintro ⟨H0, H1, HS⟩
      iframe
  · have hz : t.val ≠ 0 := fun h => h0 (by rw [h])
    have hc0 : ¬cond1_0 (grid1.coords t) := fun h => h0 ((hfirst1 t).mp h)
    rw [accAt1_next V c t h0]; unfold hsAt1
    rw [PhiS1_castSucc V c t, PhiS1_pos V c _ _ hz]
    by_cases h4 : t.val % 5 = 4
    · have hc1 : k1_cond2 (grid1.coords t) = 1#1 := (hlast1 t).mpr h4
      rw [show (dat1 V c).leavesExact 3 t = owns (c : Thread nD τ) (ms1_3 t) fullShare ((dat1 V c).after 3 t) from by
        unfold Dat.leavesExact; rw [liveAt1_3 t hc1], after1_3 V c t hc1]
      rw [accAt1_next V c t h0]; unfold hsAt1 htAt1
      iintro ⟨⟨HS, HR, Hg⟩, Ho, ⟨%d0, H0⟩, ⟨%d1, H1⟩, ⟨%d2, H2⟩, ⟨%d3, H3⟩⟩
      iapply (run1_C c (grid1.coords t) _ _ _ _ _ _ _ _ _ _ hc0 hc1 (iblk1 V c 0 t) (iblk1 V c 1 t) (iblk1 V c 2 t)
        (accAt1 V c (t.val - 1) (Nat.lt_of_le_of_lt (Nat.sub_le _ _) t.isLt)) Set.univ _)
      iframe H0 H1 H2
      isplitl [H3]; · iexists _; iexact H3
      iframe HS
      iintro ⟨H0, H1, H2, H3, HS⟩
      iframe
    · have hc1 : ¬k1_cond2 (grid1.coords t) = 1#1 := fun h => h4 ((hlast1 t).mp h)
      rw [Dat.leavesExact_idle (dat1 V c) 3 t (idleAt1_3 t hc1) (noFlush1_3 t hc1)]
      iintro ⟨⟨HS, HR, Hg⟩, Ho, ⟨%d0, H0⟩, ⟨%d1, H1⟩, ⟨%d2, H2⟩, H3⟩
      iapply (run1_B c (grid1.coords t) _ _ _ _ _ _ _ _ _ _ hc0 hc1 (iblk1 V c 0 t) (iblk1 V c 1 t)
        (accAt1 V c (t.val - 1) (Nat.lt_of_le_of_lt (Nat.sub_le _ _) t.isLt)) Set.univ _)
      iframe H0 H1 HS
      iintro ⟨H0, H1, HS⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]
    · iexists _; iexact HS
    iexact HR
  iexact Hg

theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Hand

end
-- ==== Proof.KI.R2.lean ====
import proofs.«424795_j47278999994618_2_alg».proof.Proof.KI.R1
import proofs.«424795_j47278999994618_2_alg».proof.Proof.Gen.KernelIdeal.Skeleton
import proofs.«424795_j47278999994618_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def hsAt2 (c : Dev nD) (t : Fin cfg2.N) : Vec F S2048x256 .bf16 :=
  View.ld (S := S10240x256) (iblk2 V c 1 t) (rs1 (grid2.coords t))

def htAt2 (c : Dev nD) (t : Fin cfg2.N) (h : k1_cond2 (grid2.coords t) = 1#1) : Vec F S1024x256 .bf16 :=
  View.ld (S := S10240x256) (iblk2 V c 1 t) (rt1 (grid2.coords t) h)

theorem index2_1 : ∀ (t : Fin cfg2.N) (a : Fin 2), win2_1.index t a = 0 :=
  (by decide +kernel : ∀ (t : Fin grid2.N) (a : Fin 2), win2_1.index t a = 0)

theorem hsAt2_apply (c : Dev nD) (t : Fin cfg2.N) (y : S2048x256.Idx) :
    hsAt2 V c t y = V c main_v33 (ValueIdx.ix2 (⟨2048 * (t.val % 5) + (y 0).val, by have h0 : (y 0).val < 2048 := (y 0).isLt; have hN : t.val < 50 := lt_of_lt_of_eq t.isLt N_2; omega⟩ : Fin 10240) (⟨(y 1).val, (y 1).isLt⟩ : Fin 256)) := by
  unfold hsAt2 iblk2
  show V c main_v33 (((cfg2.win 1).blk t).view.emb ((rs1 (grid2.coords t)).idx y)) = _
  refine congrArg (V c main_v33) (funext fun a => Fin.ext ?_)
  have e1 := k1_off1_eq (grid2.coords t)
  have e2 := coord1_1 t
  match a with
  | ⟨0, _⟩ =>
    show win2_1.index t (0 : Fin 2) * 10240 + 1 * (k1_off1 (grid2.coords t) 0 + 1 * (y 0).val) = 2048 * (t.val % 5) + (y 0).val
    have e3 : k1_off1 (grid2.coords t) 0 = 2048 * (t.val % 5) := by rw [e1, ← e2]; rfl
    rw [index2_1 t 0, e3]; omega
  | ⟨1, _⟩ =>
    show win2_1.index t (1 : Fin 2) * 256 + 1 * (k1_off1 (grid2.coords t) 1 + 1 * (y 1).val) = (y 1).val
    have e3 : k1_off1 (grid2.coords t) 1 = 0 := by rw [e1]; rfl
    rw [index2_1 t 1, e3]; omega

theorem htAt2_apply (c : Dev nD) (t : Fin cfg2.N) (h : k1_cond2 (grid2.coords t) = 1#1) (y : S1024x256.Idx) :
    htAt2 V c t h y = V c main_v33 (ValueIdx.ix2 (⟨1024 * (t.val / 5) + (y 0).val, by have h0 : (y 0).val < 1024 := (y 0).isLt; have hN : t.val < 50 := lt_of_lt_of_eq t.isLt N_2; omega⟩ : Fin 10240) (⟨(y 1).val, (y 1).isLt⟩ : Fin 256)) := by
  unfold htAt2 iblk2
  show V c main_v33 (((cfg2.win 1).blk t).view.emb ((rt1 (grid2.coords t) h).idx y)) = _
  refine congrArg (V c main_v33) (funext fun a => Fin.ext ?_)
  have e1 := k1_off2_eq (grid2.coords t)
  have e2 := coord1_0 t
  match a with
  | ⟨0, _⟩ =>
    show win2_1.index t (0 : Fin 2) * 10240 + 1 * (k1_off2 (grid2.coords t) 0 + 1 * (y 0).val) = 1024 * (t.val / 5) + (y 0).val
    have e3 : k1_off2 (grid2.coords t) 0 = 1024 * (t.val / 5) := by rw [e1, ← e2]; rfl
    rw [index2_1 t 0, e3]; omega
  | ⟨1, _⟩ =>
    show win2_1.index t (1 : Fin 2) * 256 + 1 * (k1_off2 (grid2.coords t) 1 + 1 * (y 1).val) = (y 1).val
    have e3 : k1_off2 (grid2.coords t) 1 = 0 := by rw [e1]; rfl
    rw [index2_1 t 1, e3]; omega

def accAt2 (c : Dev nD) : (n : ℕ) → n < cfg2.N → Vec F S1024x256 .f32
  | 0, hn => k1_pay2 (iblk2 V c 0 ⟨0, hn⟩) (hsAt2 V c ⟨0, hn⟩) k1_pay1
  | n + 1, hn =>
    if (n + 1) % 5 = 0 then k1_pay2 (iblk2 V c 0 ⟨n + 1, hn⟩) (hsAt2 V c ⟨n + 1, hn⟩) k1_pay1
    else k1_pay2 (iblk2 V c 0 ⟨n + 1, hn⟩) (hsAt2 V c ⟨n + 1, hn⟩) (accAt2 c n (Nat.lt_of_succ_lt hn))

theorem accAt2_first (c : Dev nD) (t : Fin cfg2.N) (h : t.val % 5 = 0) :
    accAt2 V c t.val t.isLt = k1_pay2 (iblk2 V c 0 t) (hsAt2 V c t) k1_pay1 := by
  obtain ⟨n, hn⟩ := t
  cases n with
  | zero => rfl
  | succ n => exact (if_pos h).trans rfl

theorem accAt2_next (c : Dev nD) (t : Fin cfg2.N) (h : t.val % 5 ≠ 0) :
    accAt2 V c t.val t.isLt = k1_pay2 (iblk2 V c 0 t) (hsAt2 V c t) (accAt2 V c (t.val - 1) (Nat.lt_of_le_of_lt (Nat.sub_le _ _) t.isLt)) := by
  obtain ⟨n, hn⟩ := t
  cases n with
  | zero => exact absurd (Nat.zero_mod _) h
  | succ n => exact (if_neg h).trans rfl

theorem idleAt2_3 : ∀ t : Fin cfg2.N, ¬k1_cond2 (grid2.coords t) = 1#1 → cfg2.idle 3 (grid2.coords t) = true := by decide +kernel
theorem noFlush2_3 : ∀ t : Fin cfg2.N, ¬k1_cond2 (grid2.coords t) = 1#1 → (cfg2.win 3).flush t = false := by decide +kernel

theorem liveAt2_3 : ∀ t : Fin cfg2.N, k1_cond2 (grid2.coords t) = 1#1 → cfg2.idle 3 (grid2.coords t) = false := by decide +kernel

def outAt2 (c : Dev nD) (t : Fin cfg2.N) : Vec F S1024x256 .bf16 :=
  if hc : k1_cond2 (grid2.coords t) = 1#1 then k1_pay3 (htAt2 V c t hc) (accAt2 V c t.val t.isLt) (iblk2 V c 2 t)
  else fun _ => Classical.choice (Elt.nonempty F _)

abbrev scM2 : Memref sig .tc .vmem S1024x256 .f32 := Memref.whole cc2_scratch0

def PhiS2 (c : Dev nD) : (n : ℕ) → n ≤ cfg2.N → sProp 𝕄
  | 0, _ => Pipeline.ΦA spec2 c
  | n + 1, hn => iprop(owns (c : Thread nD τ) scM2 fullShare (accAt2 V c n hn) ∗ Pipeline.scopedRestBut spec2 c [cc2_scratch0] ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (accAt2 V c n hn) ∗ Pipeline.scopedRestBut spec2 c [cc2_scratch0] ∗ (∃ r, prngReg c r)) := rfl

theorem PhiS2_pos (c : Dev nD) (n : ℕ) (h : n ≤ cfg2.N) (hz : n ≠ 0) :
    PhiS2 V c n h = iprop(owns (c : Thread nD τ) scM2 fullShare (accAt2 V c (n - 1) (by omega)) ∗ Pipeline.scopedRestBut spec2 c [cc2_scratch0] ∗ (∃ r, prngReg c r)) := by
  cases n with
  | zero => exact absurd rfl hz
  | succ n => rfl

theorem PhiA2_eq (c : Dev nD) :
    (Pipeline.ΦA spec2 c : sProp 𝕄)
      = iprop(iprop((∃ d, owns (c : Thread nD τ) scM2 fullShare d) ∗ Pipeline.scopedRestBut spec2 c [cc2_scratch0]) ∗ (∃ r, prngReg c r)) := by
  unfold Pipeline.ΦA; rw [scopedRest2_split]; simp only [scM2, owns_whole]; try rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3' (c : Dev nD) (t : Fin cfg2.N) : (dat2 V c).after 3 t = outAt2 V c t := by dsimp only [dat2]

theorem after2_3 (c : Dev nD) (t : Fin cfg2.N) (hc : k1_cond2 (grid2.coords t) = 1#1) :
    (dat2 V c).after 3 t = k1_pay3 (htAt2 V c t hc) (accAt2 V c t.val t.isLt) (iblk2 V c 2 t) := by
  rw [after2_3']; unfold outAt2; rw [dif_pos hc]

theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

set_option maxHeartbeats 1000000 in

set_option maxHeartbeats 1000000 in

set_option maxHeartbeats 1000000 in

-- Both propagation regions run one kernel function.
theorem gcn_same : cc2__gcn_kernel (F := F) = cc1__gcn_kernel := rfl

abbrev ms2_0 (t : Fin cfg2.N) : Memref sig .tc .vmem S1024x2048 .bf16 := win2_0.stage (cfg2.slots t 0)
abbrev ms2_1 (t : Fin cfg2.N) : Memref sig .tc .vmem S10240x256 .bf16 := win2_1.stage (cfg2.slots t 1)
abbrev ms2_2 (t : Fin cfg2.N) : Memref sig .tc .vmem S1024x1 .f32 := win2_2.stage (cfg2.slots t 2)
abbrev ms2_3 (t : Fin cfg2.N) : Memref sig .tc .vmem S1024x256 .bf16 := win2_3.stage (cfg2.slots t 3)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ (dat2 V c).leavesExact 3 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [gcn_same]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  have hN : t.val < 50 := lt_of_lt_of_eq t.isLt (show cfg2.N = 50 from N_2)
  by_cases h0 : t.val % 5 = 0
  · have hc1 : ¬k1_cond2 (grid2.coords t) = 1#1 := fun h => by have := (hlast1 t).mp h; omega
    rw [Dat.leavesExact_idle (dat2 V c) 3 t (idleAt2_3 t hc1) (noFlush2_3 t hc1)]
    rw [accAt2_first V c t h0]; unfold hsAt2
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, H3⟩
      iapply (run1_A c (grid2.coords t) _ _ _ _ _ _ _ _ _ _ ((hfirst1 t).mpr h0) hc1 (iblk2 V c 0 t) (iblk2 V c 1 t) Set.univ _)
      iframe H0 H1 HS
      iintro ⟨H0, H1, HS⟩
      iframe
    · rw [PhiS2_castSucc V c t, PhiS2_pos V c _ _ hz]
      iintro ⟨⟨HS, HR, Hg⟩, Ho, ⟨%d0, H0⟩, ⟨%d1, H1⟩, ⟨%d2, H2⟩, H3⟩
      iapply (run1_A c (grid2.coords t) _ _ _ _ _ _ _ _ _ _ ((hfirst1 t).mpr h0) hc1 (iblk2 V c 0 t) (iblk2 V c 1 t) Set.univ _)
      iframe H0 H1
      isplitl [HS]; · iexists _; iexact HS
      iintro ⟨H0, H1, HS⟩
      iframe
  · have hz : t.val ≠ 0 := fun h => h0 (by rw [h])
    have hc0 : ¬cond1_0 (grid2.coords t) := fun h => h0 ((hfirst1 t).mp h)
    rw [accAt2_next V c t h0]; unfold hsAt2
    rw [PhiS2_castSucc V c t, PhiS2_pos V c _ _ hz]
    by_cases h4 : t.val % 5 = 4
    · have hc1 : k1_cond2 (grid2.coords t) = 1#1 := (hlast1 t).mpr h4
      rw [show (dat2 V c).leavesExact 3 t = owns (c : Thread nD τ) (ms2_3 t) fullShare ((dat2 V c).after 3 t) from by
        unfold Dat.leavesExact; rw [liveAt2_3 t hc1], after2_3 V c t hc1]
      rw [accAt2_next V c t h0]; unfold hsAt2 htAt2
      iintro ⟨⟨HS, HR, Hg⟩, Ho, ⟨%d0, H0⟩, ⟨%d1, H1⟩, ⟨%d2, H2⟩, ⟨%d3, H3⟩⟩
      iapply (run1_C c (grid2.coords t) _ _ _ _ _ _ _ _ _ _ hc0 hc1 (iblk2 V c 0 t) (iblk2 V c 1 t) (iblk2 V c 2 t)
        (accAt2 V c (t.val - 1) (Nat.lt_of_le_of_lt (Nat.sub_le _ _) t.isLt)) Set.univ _)
      iframe H0 H1 H2
      isplitl [H3]; · iexists _; iexact H3
      iframe HS
      iintro ⟨H0, H1, H2, H3, HS⟩
      iframe
    · have hc1 : ¬k1_cond2 (grid2.coords t) = 1#1 := fun h => h4 ((hlast1 t).mp h)
      rw [Dat.leavesExact_idle (dat2 V c) 3 t (idleAt2_3 t hc1) (noFlush2_3 t hc1)]
      iintro ⟨⟨HS, HR, Hg⟩, Ho, ⟨%d0, H0⟩, ⟨%d1, H1⟩, ⟨%d2, H2⟩, H3⟩
      iapply (run1_B c (grid2.coords t) _ _ _ _ _ _ _ _ _ _ hc0 hc1 (iblk2 V c 0 t) (iblk2 V c 1 t)
        (accAt2 V c (t.val - 1) (Nat.lt_of_le_of_lt (Nat.sub_le _ _) t.isLt)) Set.univ _)
      iframe H0 H1 HS
      iintro ⟨H0, H1, HS⟩
      iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]
    · iexists _; iexact HS
    iexact HR
  iexact Hg

theorem hout2 (c : Dev nD) : (dat2 V c).Φ (Fin.last cfg2.N) ⊢ Pipeline.ΦA spec2 c :=
  Phi_out2 V c _ (by rw [Fin.val_last]; have : cfg2.N = 50 := N_2; omega)

end Cert.KernelIdeal.Hand

end
-- ==== Proof.KI.R3.lean ====
import proofs.«424795_j47278999994618_2_alg».proof.Proof.Gen.KernelIdeal.Launch
import proofs.«424795_j47278999994618_2_alg».proof.Proof.Gen.KernelIdeal.Skeleton
import proofs.«424795_j47278999994618_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t | ⟨1, _⟩ => iblk3 V c 1 t | ⟨2, _⟩ => iblk3 V c 2 t | ⟨3, _⟩ => iblk3 V c 3 t
    | ⟨4, _⟩ => iblk3 V c 4 t | ⟨5, _⟩ => iblk3 V c 5 t | ⟨6, _⟩ => iblk3 V c 6 t
    | ⟨7, _⟩ => k3_pay1 (iblk3 V c 0 t) (iblk3 V c 1 t) (iblk3 V c 2 t)
    | ⟨8, _⟩ => k3_pay2 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) : (dat3 V c).after 7 t = k3_pay1 (iblk3 V c 0 t) (iblk3 V c 1 t) (iblk3 V c 2 t) := by
  dsimp only [dat3]
theorem after3_8 (c : Dev nD) (t : Fin cfg3.N) : (dat3 V c).after 8 t = k3_pay2 (iblk3 V c 0 t) (iblk3 V c 1 t) (iblk3 V c 2 t) (iblk3 V c 3 t) (iblk3 V c 4 t) (iblk3 V c 5 t) (iblk3 V c 6 t) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
      (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
      (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
      (fun t => by rw [after3_6]; unfold Dat.blockOf iblk3; rw [A_eq3]; try rfl) t d).trans
    (by unfold Dat.fetched Dat.blockOf iblk3; rw [A_eq3]; try rfl)

theorem zeros2 : (![0, 0] : Fin 2 → Nat) = fun _ => 0 := funext fun a => by fin_cases a <;> rfl

set_option maxHeartbeats 4000000 in

theorem sound_kernel3 (c : Dev nD) (E : Set ℕ) (i : grid3.Coords) (arg1 : Memref sig .tc .vmem S1024x256 .bf16) (harg1 : arg1.IsWhole) (arg2 : Memref sig .tc .vmem S128x256 .f32) (harg2 : arg2.IsWhole) (arg3 : Memref sig .tc .vmem S1x128 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x1 .f32) (harg7 : arg7.IsWhole) (arg8 : Memref sig .tc .vmem S1024x128 .f32) (harg8 : arg8.IsWhole) (arg9 : Memref sig .tc .vmem S1024x1 .f32) (harg9 : arg9.IsWhole)
    (x0 : Vec F S1024x256 .bf16) (x1 : Vec F S128x256 .f32) (x2 : Vec F S1x128 .f32) (x3 : Vec F S64x128 .f32) (x4 : Vec F S1x64 .f32) (x5 : Vec F S1x64 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k3_pay1 x0 x1 x2) ∗ owns (c : Thread nD τ) arg9 fullShare (k3_pay2 x0 x1 x2 x3 x4 x5 x6)) -∗ K ⟨⟩))
      ⊢ wp frame (wpE (defs₀ (F := F)) Variants.none c none) E (cc3__fc2_att_kernel i arg1 harg1 arg2 harg2 arg3 harg3 arg4 harg4 arg5 harg5 arg6 harg6 arg7 harg7 arg8 harg8 arg9 harg9) K := by
  simp only [cc3__fc2_att_kernel_eq_skeleton]; unfold cc3__fc2_att_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => ⟨_, List.mem_singleton_self _, View.mem_set_unit_zero zeros2 inb_S1024x128_S1024x128_0_0 y⟩),
      View.canon_unit_zero (S := S1024x128) zeros2]
    simp only [View.readAt_eq_ld, View.ld_unit_zero (S := S1024x256) zeros2, View.ld_unit_zero (S := S128x256) zeros2,
      View.ld_unit_zero (S := S1x128) zeros2]
  iexists _; isplitr
  swap; · iexact H8
  ipureintro
  rw [View.read_writes_eq_canon _ _ _ (fun y => ⟨_, List.mem_singleton_self _, View.mem_set_unit_zero zeros2 inb_S1024x1_S1024x1_0_0 y⟩),
    View.canon_unit_zero (S := S1024x1) zeros2]
  simp only [View.readAt_eq_ld, View.ld_unit_zero (S := S1024x256) zeros2, View.ld_unit_zero (S := S128x256) zeros2,
    View.ld_unit_zero (S := S1x128) zeros2, View.ld_unit_zero (S := S64x128) zeros2, View.ld_unit_zero (S := S1x64) zeros2,
    View.ld_unit_zero (S := S1x1) zeros2]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 1000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ (grid3.coords t) _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  iframe H0 H1 H2 H3 H4 H5 H6
  isplitl [H7]; · iexists _; iexact H7
  isplitl [H8]; · iexists _; iexact H8
  iintro ⟨H0, H1, H2, H3, H4, H5, H6, H7, H8⟩
  isplitl [HΦ]; · iexact HΦ
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«424795_j47278999994618_2_alg».proof.Proof.KI.R0
import proofs.«424795_j47278999994618_2_alg».proof.Proof.KI.R1
import proofs.«424795_j47278999994618_2_alg».proof.Proof.KI.R2
import proofs.«424795_j47278999994618_2_alg».proof.Proof.KI.R3
import proofs.«424795_j47278999994618_2_alg».proof.Proof.Gen.KernelIdeal.Regions
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev U3 : (c : Dev nD) → (b : Ref sig .tc) → Buf (Elt F) ((c : Thread nD τ).loc b) := fun c b => Gen.V3 m c b

def o4 (c : Dev nD) : Buf (Elt F) ((c : Thread nD τ).loc main_v32) := (dat0 (U3 m) c).arrAt 3 cfg0.N
def outsA : Gen.Outs (F := F) := fun _ r c => if h : r = main_v32 then h ▸ o4 m c else m ((c : Thread nD τ).loc r)
abbrev U4 : (c : Dev nD) → (b : Ref sig .tc) → Buf (Elt F) ((c : Thread nD τ).loc b) := fun c b => Gen.V4 m (outsA m) c b

def o5 (c : Dev nD) : Buf (Elt F) ((c : Thread nD τ).loc main_v33) := (dat1 (U4 m) c).arrAt 3 cfg1.N
def outsB : Gen.Outs (F := F) := fun J r c => if h : r = main_v33 then h ▸ o5 m c else outsA m J r c
abbrev U5 : (c : Dev nD) → (b : Ref sig .tc) → Buf (Elt F) ((c : Thread nD τ).loc b) := fun c b => Gen.V5 m (outsB m) c b

def o6 (c : Dev nD) : Buf (Elt F) ((c : Thread nD τ).loc main_v34) := (dat2 (U5 m) c).arrAt 3 cfg2.N
def outsC : Gen.Outs (F := F) := fun J r c => if h : r = main_v34 then h ▸ o6 m c else outsB m J r c
abbrev U7 : (c : Dev nD) → (b : Ref sig .tc) → Buf (Elt F) ((c : Thread nD τ).loc b) := fun c b => Gen.V7 m (outsC m) c b

def o8a (c : Dev nD) : Buf (Elt F) ((c : Thread nD τ).loc main_v38_0) := (dat3 (U7 m) c).arrAt 7 cfg3.N
def o8b (c : Dev nD) : Buf (Elt F) ((c : Thread nD τ).loc main_v38_1) := (dat3 (U7 m) c).arrAt 8 cfg3.N

def outs : Gen.Outs (F := F) := fun J r c =>
  if h : r = main_v38_0 then h ▸ o8a m c else if h : r = main_v38_1 then h ▸ o8b m c else outsC m J r c

theorem outsA_v32 (J : ℕ) (c : Dev nD) : outsA m J main_v32 c = o4 m c := by unfold outsA; rw [dif_pos rfl]
theorem outsB_v32 (J : ℕ) (c : Dev nD) : outsB m J main_v32 c = o4 m c := by
  unfold outsB; rw [dif_neg (by decide)]; exact outsA_v32 m J c
theorem outsB_v33 (J : ℕ) (c : Dev nD) : outsB m J main_v33 c = o5 m c := by unfold outsB; rw [dif_pos rfl]
theorem outsC_v32 (J : ℕ) (c : Dev nD) : outsC m J main_v32 c = o4 m c := by
  unfold outsC; rw [dif_neg (by decide)]; exact outsB_v32 m J c
theorem outsC_v33 (J : ℕ) (c : Dev nD) : outsC m J main_v33 c = o5 m c := by
  unfold outsC; rw [dif_neg (by decide)]; exact outsB_v33 m J c
theorem outsC_v34 (J : ℕ) (c : Dev nD) : outsC m J main_v34 c = o6 m c := by unfold outsC; rw [dif_pos rfl]
theorem outs_v32 (J : ℕ) (c : Dev nD) : outs m J main_v32 c = o4 m c := by
  unfold outs; rw [dif_neg (by decide), dif_neg (by decide)]; exact outsC_v32 m J c
theorem outs_v33 (J : ℕ) (c : Dev nD) : outs m J main_v33 c = o5 m c := by
  unfold outs; rw [dif_neg (by decide), dif_neg (by decide)]; exact outsC_v33 m J c
theorem outs_v34 (J : ℕ) (c : Dev nD) : outs m J main_v34 c = o6 m c := by
  unfold outs; rw [dif_neg (by decide), dif_neg (by decide)]; exact outsC_v34 m J c
theorem outs_v38_0 (J : ℕ) (c : Dev nD) : outs m J main_v38_0 c = o8a m c := by unfold outs; rw [dif_pos rfl]
theorem outs_v38_1 (J : ℕ) (c : Dev nD) : outs m J main_v38_1 c = o8b m c := by
  unfold outs; rw [dif_neg (by decide), dif_pos rfl]

theorem V4_eq (c : Dev nD) : Gen.V4 m (outs m) c = Gen.V4 m (outsA m) c := by
  simp only [Gen.V4, outs_v32, outsA_v32]
theorem V5_eq (c : Dev nD) : Gen.V5 m (outs m) c = Gen.V5 m (outsB m) c := by
  simp only [Gen.V5, Gen.V4, outs_v32, outs_v33, outsB_v32, outsB_v33]
theorem V6_eq (c : Dev nD) : Gen.V6 m (outs m) c = Gen.V6 m (outsC m) c := by
  simp only [Gen.V6, Gen.V5, Gen.V4, outs_v32, outs_v33, outs_v34, outsC_v32, outsC_v33, outsC_v34]
theorem V7_eq (c : Dev nD) : Gen.V7 m (outs m) c = Gen.V7 m (outsC m) c := by
  show StableHlo.after hostOps3 (Gen.V6 m (outs m) c) = StableHlo.after hostOps3 (Gen.V6 m (outsC m) c)
  rw [V6_eq]

def pdats : (p : Fin 4) → (c : Dev nD) → Dat τ (Elt F) Unit ℕ (UR sig nD τ) ℕ (cfgs p) c
  | ⟨0, _⟩ => fun c => dat0 (U3 m) c
  | ⟨1, _⟩ => fun c => dat1 (U4 m) c
  | ⟨2, _⟩ => fun c => dat2 (U5 m) c
  | ⟨3, _⟩ => fun c => dat3 (U7 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev E : Fin 5 → Dev nD → sProp 𝕄 := fun _ c => R (F := F) c

theorem hF0 (c : Dev nD) : ∀ w, (pdats m 0 c).arrAt w cfg0.N = Gen.V4 m (outs m) c (Pipeline.arrRef spec0 w)
  | ⟨0, _⟩ => (((dat0 (U3 m) c).arrAt_in 0 rfl _).trans (A_eq0 (U3 m) c 0)).trans (Gen.V4_of m (outs m) c main_v30 (by decide)).symm
  | ⟨1, _⟩ => (((dat0 (U3 m) c).arrAt_in 1 rfl _).trans (A_eq0 (U3 m) c 1)).trans (Gen.V4_of m (outs m) c main_arg2 (by decide)).symm
  | ⟨2, _⟩ => (((dat0 (U3 m) c).arrAt_in 2 rfl _).trans (A_eq0 (U3 m) c 2)).trans (Gen.V4_of m (outs m) c main_v31 (by decide)).symm
  | ⟨3, _⟩ => by
      show o4 m c = Function.update (Gen.V3 m c) main_v32 (outs m 4 main_v32 c) main_v32
      rw [Function.update_self, outs_v32]
theorem hrest0 (c : Dev nD) : ∀ b, b ∉ Finset.univ.image (Pipeline.arrRef spec0) → Gen.V4 m (outs m) c b = Gen.V3 m c b :=
  fun b hb => Gen.V4_of m (outs m) c b fun h => hb (by
    rw [List.mem_singleton] at h; subst h; exact Finset.mem_image.mpr ⟨3, Finset.mem_univ _, rfl⟩)

theorem hA1 (c : Dev nD) (w : Fin cfg1.W) : (pdats m 1 c).A w = Gen.V4 m (outs m) c (Pipeline.arrRef spec1 w) :=
  (A_eq1 (U4 m) c w).trans (congrFun (V4_eq m c).symm _)
theorem hF1 (c : Dev nD) : ∀ w, (pdats m 1 c).arrAt w cfg1.N = Gen.V5 m (outs m) c (Pipeline.arrRef spec1 w)
  | ⟨0, _⟩ => (((dat1 (U4 m) c).arrAt_in 0 rfl _).trans (hA1 m c 0)).trans (Gen.V5_of m (outs m) c main_v29 (by decide)).symm
  | ⟨1, _⟩ => (((dat1 (U4 m) c).arrAt_in 1 rfl _).trans (hA1 m c 1)).trans (Gen.V5_of m (outs m) c main_v32 (by decide)).symm
  | ⟨2, _⟩ => (((dat1 (U4 m) c).arrAt_in 2 rfl _).trans (hA1 m c 2)).trans (Gen.V5_of m (outs m) c main_v12 (by decide)).symm
  | ⟨3, _⟩ => by
      show o5 m c = Function.update (Gen.V4 m (outs m) c) main_v33 (outs m 5 main_v33 c) main_v33
      rw [Function.update_self, outs_v33]
theorem hrest1 (c : Dev nD) : ∀ b, b ∉ Finset.univ.image (Pipeline.arrRef spec1) → Gen.V5 m (outs m) c b = Gen.V4 m (outs m) c b :=
  fun b hb => Gen.V5_of m (outs m) c b fun h => hb (by
    rw [List.mem_singleton] at h; subst h; exact Finset.mem_image.mpr ⟨3, Finset.mem_univ _, rfl⟩)

theorem hA2 (c : Dev nD) (w : Fin cfg2.W) : (pdats m 2 c).A w = Gen.V5 m (outs m) c (Pipeline.arrRef spec2 w) :=
  (A_eq2 (U5 m) c w).trans (congrFun (V5_eq m c).symm _)
theorem hF2 (c : Dev nD) : ∀ w, (pdats m 2 c).arrAt w cfg2.N = Gen.V6 m (outs m) c (Pipeline.arrRef spec2 w)
  | ⟨0, _⟩ => (((dat2 (U5 m) c).arrAt_in 0 rfl _).trans (hA2 m c 0)).trans (Gen.V6_of m (outs m) c main_v29 (by decide)).symm
  | ⟨1, _⟩ => (((dat2 (U5 m) c).arrAt_in 1 rfl _).trans (hA2 m c 1)).trans (Gen.V6_of m (outs m) c main_v33 (by decide)).symm
  | ⟨2, _⟩ => (((dat2 (U5 m) c).arrAt_in 2 rfl _).trans (hA2 m c 2)).trans (Gen.V6_of m (outs m) c main_v12 (by decide)).symm
  | ⟨3, _⟩ => by
      show o6 m c = Function.update (Gen.V5 m (outs m) c) main_v34 (outs m 6 main_v34 c) main_v34
      rw [Function.update_self, outs_v34]
theorem hrest2 (c : Dev nD) : ∀ b, b ∉ Finset.univ.image (Pipeline.arrRef spec2) → Gen.V6 m (outs m) c b = Gen.V5 m (outs m) c b :=
  fun b hb => Gen.V6_of m (outs m) c b fun h => hb (by
    rw [List.mem_singleton] at h; subst h; exact Finset.mem_image.mpr ⟨3, Finset.mem_univ _, rfl⟩)

theorem hA3 (c : Dev nD) (w : Fin cfg3.W) : (pdats m 3 c).A w = Gen.V7 m (outs m) c (Pipeline.arrRef spec3 w) :=
  (A_eq3 (U7 m) c w).trans (congrFun (V7_eq m c).symm _)

theorem V8_v38_0 (c : Dev nD) : Gen.V8 m (outs m) c main_v38_0 = o8a m c := by
  simp only [Gen.V8]
  rw [Function.update_of_ne (StableHlo.devRef_ne_of_ne (by decide) : (Proc.devRef .tc main_v38_0 : DevRef τ sig) ≠ Proc.devRef .tc main_v38_1),
    Function.update_self, outs_v38_0]
theorem V8_v38_1 (c : Dev nD) : Gen.V8 m (outs m) c main_v38_1 = o8b m c := by
  simp only [Gen.V8]
  rw [Function.update_self, outs_v38_1]
set_option maxHeartbeats 1000000 in
theorem hF3 (c : Dev nD) : ∀ w, (pdats m 3 c).arrAt w cfg3.N = Gen.V8 m (outs m) c (Pipeline.arrRef spec3 w)
  | ⟨0, _⟩ => (((dat3 (U7 m) c).arrAt_in 0 rfl _).trans (hA3 m c 0)).trans (Gen.V8_of m (outs m) c main_v34 (by decide)).symm
  | ⟨1, _⟩ => (((dat3 (U7 m) c).arrAt_in 1 rfl _).trans (hA3 m c 1)).trans (Gen.V8_of m (outs m) c main_arg4 (by decide)).symm
  | ⟨2, _⟩ => (((dat3 (U7 m) c).arrAt_in 2 rfl _).trans (hA3 m c 2)).trans (Gen.V8_of m (outs m) c main_v35 (by decide)).symm
  | ⟨3, _⟩ => (((dat3 (U7 m) c).arrAt_in 3 rfl _).trans (hA3 m c 3)).trans (Gen.V8_of m (outs m) c main_arg6 (by decide)).symm
  | ⟨4, _⟩ => (((dat3 (U7 m) c).arrAt_in 4 rfl _).trans (hA3 m c 4)).trans (Gen.V8_of m (outs m) c main_v36 (by decide)).symm
  | ⟨5, _⟩ => (((dat3 (U7 m) c).arrAt_in 5 rfl _).trans (hA3 m c 5)).trans (Gen.V8_of m (outs m) c main_arg8 (by decide)).symm
  | ⟨6, _⟩ => (((dat3 (U7 m) c).arrAt_in 6 rfl _).trans (hA3 m c 6)).trans (Gen.V8_of m (outs m) c main_v37 (by decide)).symm
  | ⟨7, _⟩ => (V8_v38_0 m c).symm
  | ⟨8, _⟩ => (V8_v38_1 m c).symm
theorem hrest3 (c : Dev nD) : ∀ b, b ∉ Finset.univ.image (Pipeline.arrRef spec3) → Gen.V8 m (outs m) c b = Gen.V7 m (outs m) c b :=
  fun b hb => Gen.V8_of m (outs m) c b fun h => hb (by
    rcases List.mem_cons.mp h with h | h
    · subst h; exact Finset.mem_image.mpr ⟨7, Finset.mem_univ _, rfl⟩
    · rw [List.mem_singleton] at h; subst h; exact Finset.mem_image.mpr ⟨8, Finset.mem_univ _, rfl⟩)

set_option backward.isDefEq.respectTransparency.types false in
-- One construction serves all four regions: what differs is passed in (the launch facts, the body's obligation, the contents before and after, the two ends of the invariant).
def reg (p : Fin 4) (lf : Pipeline.LaunchFacts (nD := nD) (τ := τ) cfgs p)
    (hb : ∀ c, BodyObligation (pdats m p c) (defs₀ (F := F)) 𝒱₀ () Set.univ)
    (hq : ∀ c w, (pdats m p c).q w = fullShare) (howed : ∀ c t, (pdats m p c).owed t = 0)
    (hrec : ∀ c x, x ∈ (pdats m p c).recorded 0)
    (Vb Va : Dev nD → Valuation τ sig (Elt F))
    (hA : ∀ c w, (pdats m p c).A w = Vb c (Pipeline.arrRef (cfgs p).spec w))
    (hF : ∀ c w, (pdats m p c).arrAt w (cfgs p).N = Va c (Pipeline.arrRef (cfgs p).spec w))
    (hrest : ∀ c b, b ∉ Finset.univ.image (Pipeline.arrRef (cfgs p).spec) → Va c b = Vb c b)
    (hin : ∀ c, Pipeline.ΦA (cfgs p).spec c ⊢ (pdats m p c).Φ 0)
    (hout : ∀ c, (pdats m p c).Φ (Fin.last _) ⊢ Pipeline.ΦA (cfgs p).spec c) :
    RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vb c) ∗ R (F := F) c)
  post c := iprop(StableHlo.held (c : Thread nD τ) (Pipeline.ucRefs τ sig) (Va c) ∗ R (F := F) c)
  X c := iprop(∃ r, prngReg c r)
  Y c := iprop(∃ r, prngReg c r)
  Z c := Pipeline.unscopedRest (Ix := Unit) (Name := ℕ) (U := UR sig nD τ) (Lvl := ℕ) (cfgs p).spec c (fun b => Vb c b)
  hentry c := by
    rw [Pipeline.ownSems0_none]
    have hsplit := Pipeline.arrays_of_unscopedBufs (p := p) (pcfgs (F := F)) Gen.adm (pdats m) lf.win lf.arr_whole c
      ((pdats m p c).share_full (hq c)) (fun b => Vb c b) (hA c)
    rw [Pipeline.unscopedBufs_held] at hsplit
    unfold Pipeline.Dat.owesAt Pipeline.owesWithin
    rw [howed c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (fun b => Vb c b) (fun b => Va c b) ((pdats m p c).arrAt · (cfgs p).N) (hF c) (hrest c)
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 : RegionSeg (pcfgs (F := F)) Gen.adm (pdats m) () defs₀ 𝒱₀ L lv 0 :=
  reg m 0 launch0 (body_obligation0 (U3 m)) (fun _ _ => rfl) (fun _ _ => rfl) (fun _ _ => trivial) (Gen.V3 m) (Gen.V4 m (outs m))
    (fun c => A_eq0 (U3 m) c) (hF0 m) (hrest0 m) (fun _ => .rfl) (fun _ => .rfl)
def reg1 : RegionSeg (pcfgs (F := F)) Gen.adm (pdats m) () defs₀ 𝒱₀ L lv 1 :=
  reg m 1 launch1 (body_obligation1 (U4 m)) (fun _ _ => rfl) (fun _ _ => rfl) (fun _ _ => trivial) (Gen.V4 m (outs m)) (Gen.V5 m (outs m))
    (hA1 m) (hF1 m) (hrest1 m) (hin1 (U4 m)) (hout1 (U4 m))
def reg2 : RegionSeg (pcfgs (F := F)) Gen.adm (pdats m) () defs₀ 𝒱₀ L lv 2 :=
  reg m 2 launch2 (body_obligation2 (U5 m)) (fun _ _ => rfl) (fun _ _ => rfl) (fun _ _ => trivial) (Gen.V5 m (outs m)) (Gen.V6 m (outs m))
    (hA2 m) (hF2 m) (hrest2 m) (hin2 (U5 m)) (hout2 (U5 m))
def reg3 : RegionSeg (pcfgs (F := F)) Gen.adm (pdats m) () defs₀ 𝒱₀ L lv 3 :=
  reg m 3 launch3 (body_obligation3 (U7 m)) (fun _ _ => rfl) (fun _ _ => rfl) (fun _ _ => trivial) (Gen.V7 m (outs m)) (Gen.V8 m (outs m))
    (hA3 m) (hF3 m) (hrest3 m) (fun _ => .rfl) (fun _ => .rfl)

variable (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : E (F := F) 4 c ⊢ (iprop(∃ W, owes (c : Thread nD τ) (0 : CellTallies nD τ sig Unit) W) : sProp 𝕄) := by
  iintro ⟨-, HO⟩; iexact HO

theorem bigSep_pair (A B : Dev nD → sProp 𝕄) :
    iprop(bigSep Finset.univ A ∗ bigSep Finset.univ B) ⊢ (bigSep Finset.univ fun c => iprop(A c ∗ B c) : sProp 𝕄) := by
  rw [bigSep_sep']

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V9 m (outs m) c b) := by
  refine Pipeline.θ_run_regions_kit_dev (pcfgs (F := F)) Gen.adm (pdats m) () cellOf_inj emb₁ defs₀ 𝒱₀ L lv m ρ main
    (Gen.segs m (outs m) 𝒱₀ L lv (E (F := F)) () (pdats m) (reg0 m) (reg1 m) (reg2 m) (reg3 m))
    (fun c Q => by
      rewrite [main_chain c, Seg.run_eq_chain,
        show (Gen.segs m (outs m) 𝒱₀ L lv (E (F := F)) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj)) (hu₀ (F := F))
    (T₀ := fun c => iprop(StableHlo.held (c : Thread nD τ) (Pipeline.ucRefs τ sig) (Gen.V0 m c) ∗ R (F := F) c))
    (Tₙ := fun c => StableHlo.held (c : Thread nD τ) (Pipeline.ucRefs τ sig) (Gen.V9 m (outs m) c))
    (hch := fun c => ⟨.rfl, .rfl, .rfl, .rfl, .rfl, .rfl, .rfl, .rfl, .rfl, sep_mono .rfl (hE4 c)⟩)
    (hinit := ?_) (QY := fun c s => ∀ b ∈ Pipeline.ucRefs τ sig, s.mem (((c : Thread nD τ)).1, b) = Gen.V9 m (outs m) c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    iapply (bigSep_pair (F := F) (fun c : Dev nD => StableHlo.held (c : Thread nD τ) (Pipeline.ucRefs τ sig) (Gen.V0 m c)) (E (F := F) 0))
    isplitl [Hh]; · iexact Hh
    iexact HE
  ·
    unfold StableHlo.held
    iintro ⟨Hh, HSI⟩
    ihave Hr := (pointsTo_read_all (Pipeline.ucRefs τ sig) (fun b => ((c : Thread nD τ).1, b)) (Gen.V9 m (outs m) c) s') $$ [Hh HSI]
    · isplitl [Hh] <;> iassumption
    icases Hr with ⟨%h, HSI⟩
    imodintro
    isplitr
    · ipureintro; exact h
    · iexact HSI

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- Every argument array ends as launched.
def ArgsKept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)

-- No host stretch and no region writes an argument, so the last valuation still has the launch memory there.
theorem args_kept (c : Dev nD) (mem : (ℓ : Loc nD τ sig) → Buf (Elt F) ℓ)
    (h : ∀ b ∈ Pipeline.ucRefs τ sig, mem (((c : Thread nD τ)).1, b) = Gen.V9 m (outs m) c b) : ArgsKept m c mem :=
  ⟨(h _ (mem_uc main_arg0 (by decide))).trans (Gen.V9_main_arg0 m _ c),
    (h _ (mem_uc main_arg1 (by decide))).trans (Gen.V9_main_arg1 m _ c),
    (h _ (mem_uc main_arg2 (by decide))).trans (Gen.V9_main_arg2 m _ c),
    (h _ (mem_uc main_arg3 (by decide))).trans (Gen.V9_main_arg3 m _ c),
    (h _ (mem_uc main_arg4 (by decide))).trans (Gen.V9_main_arg4 m _ c),
    (h _ (mem_uc main_arg5 (by decide))).trans (Gen.V9_main_arg5 m _ c),
    (h _ (mem_uc main_arg6 (by decide))).trans (Gen.V9_main_arg6 m _ c),
    (h _ (mem_uc main_arg7 (by decide))).trans (Gen.V9_main_arg7 m _ c),
    (h _ (mem_uc main_arg8 (by decide))).trans (Gen.V9_main_arg8 m _ c),
    (h _ (mem_uc main_arg9 (by decide))).trans (Gen.V9_main_arg9 m _ c)⟩

theorem frame : θ_run defs (onTc (τ := τ) (main (F := F))) ⟨m, fun _ => 0, ρ⟩ (fun r => ∀ c : Dev nD, ArgsKept m c r.2.mem) :=
  (θ_run defs _ _).mono (fun r h c => args_kept m c r.2.mem (h c)) (run_all m ρ)

end Cert.KernelIdeal.Hand

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

def c07 : EReal := Ideal.ofBits .f32 0x3F333333#32
def c03 : EReal := Ideal.ofBits .f32 0x3E99999A#32

theorem ofBits_one_f32 : Ideal.ofBits .f32 0x3F800000#32 = 1 := by
  simp [Ideal.ofBits, Ideal.ieee, -EReal.coe_mul]; norm_num

section Whole

variable (s t : Fin 320000 → Fin 10000)
variable (x : (⟨2, ![10000, 384]⟩ : Shape).Idx → EReal) (W1 : (⟨2, ![256, 384]⟩ : Shape).Idx → EReal)
  (b1 : (⟨1, ![256]⟩ : Shape).Idx → EReal) (W2 : (⟨2, ![128, 256]⟩ : Shape).Idx → EReal)
  (b2 : (⟨1, ![128]⟩ : Shape).Idx → EReal) (Wa1 : (⟨2, ![64, 128]⟩ : Shape).Idx → EReal)
  (ba1 : (⟨1, ![64]⟩ : Shape).Idx → EReal) (Wa2 : (⟨2, ![1, 64]⟩ : Shape).Idx → EReal)
  (ba2 : (⟨1, ![1]⟩ : Shape).Idx → EReal)

def h0 (i : Fin 10000) (c : Fin 256) : EReal :=
  max ((∑ k : Fin 384, x (ix2 i k) * W1 (ix2 c k)) + b1 (ix1 c)) 0

def dsum (i : Fin 10000) : EReal := ∑ _e ∈ Finset.univ.filter (fun e : Fin 320000 => t e = i), (1 : EReal)

def inv (i : Fin 10000) : EReal := Ideal.div 1 (dsum t i + 1)

def agg (h : Fin 10000 → Fin 256 → EReal) (i : Fin 10000) (c : Fin 256) : EReal :=
  ∑ e ∈ Finset.univ.filter (fun e : Fin 320000 => t e = i), h (s e) c

def layer (h : Fin 10000 → Fin 256 → EReal) (i : Fin 10000) (c : Fin 256) : EReal :=
  c07 * h i c + (c03 * agg s t h i c) * inv t i

def h2 : Fin 10000 → Fin 256 → EReal := layer s t (layer s t (h0 x W1 b1))

def out (i : Fin 10000) (o : Fin 128) : EReal :=
  max ((∑ k : Fin 256, h2 s t x W1 b1 i k * W2 (ix2 o k)) + b2 (ix1 o)) 0

def a1 (i : Fin 10000) (q : Fin 64) : EReal :=
  max ((∑ o : Fin 128, out s t x W1 b1 W2 b2 i o * Wa1 (ix2 q o)) + ba1 (ix1 q)) 0

def a2 (i : Fin 10000) : EReal :=
  (∑ q : Fin 64, a1 s t x W1 b1 W2 b2 Wa1 ba1 i q * Wa2 (ix2 (0 : Fin 1) q)) + ba2 (ix1 (0 : Fin 1))

def att (i : Fin 10000) : EReal := Ideal.logistic (a2 s t x W1 b1 W2 b2 Wa1 ba1 Wa2 ba2 i)

def outArr : (⟨2, ![10000, 128]⟩ : Shape).Idx → EReal :=
  fun j => out s t x W1 b1 W2 b2 ⟨(j 0).val, idx2_lt0 j⟩ ⟨(j 1).val, idx2_lt1 j⟩
def attArr : (⟨2, ![10000, 1]⟩ : Shape).Idx → EReal :=
  fun j => att s t x W1 b1 W2 b2 Wa1 ba1 Wa2 ba2 ⟨(j 0).val, idx2_lt0 j⟩

end Whole

def fc1Arr (xp : (⟨2, ![10240, 384]⟩ : Shape).Idx → EReal) (W1 : (⟨2, ![256, 384]⟩ : Shape).Idx → EReal)
    (b1r : (⟨2, ![1, 256]⟩ : Shape).Idx → EReal) : (⟨2, ![10240, 256]⟩ : Shape).Idx → EReal :=
  fun j => if (j 0).val < 10000 then
      max ((∑ k : Fin 384, xp (ix2 (⟨(j 0).val, idx2_lt0 j⟩ : Fin 10240) k) * W1 (ix2 (⟨(j 1).val, idx2_lt1 j⟩ : Fin 256) k))
        + b1r (ix2 (0 : Fin 1) (⟨(j 1).val, idx2_lt1 j⟩ : Fin 256))) 0
    else 0

def gcnArr (A : (⟨2, ![10240, 10240]⟩ : Shape).Idx → EReal) (h : (⟨2, ![10240, 256]⟩ : Shape).Idx → EReal)
    (inv : (⟨2, ![10240, 1]⟩ : Shape).Idx → EReal) : (⟨2, ![10240, 256]⟩ : Shape).Idx → EReal :=
  fun j => c07 * h j
    + (c03 * ∑ k : Fin 10240, A (ix2 (⟨(j 0).val, idx2_lt0 j⟩ : Fin 10240) k) * h (ix2 k (⟨(j 1).val, idx2_lt1 j⟩ : Fin 256)))
      * inv (ix2 (⟨(j 0).val, idx2_lt0 j⟩ : Fin 10240) (0 : Fin 1))

def fc2Arr (h : (⟨2, ![10240, 256]⟩ : Shape).Idx → EReal) (W2 : (⟨2, ![128, 256]⟩ : Shape).Idx → EReal)
    (b2r : (⟨2, ![1, 128]⟩ : Shape).Idx → EReal) : (⟨2, ![10240, 128]⟩ : Shape).Idx → EReal :=
  fun j => max ((∑ k : Fin 256, h (ix2 (⟨(j 0).val, idx2_lt0 j⟩ : Fin 10240) k) * W2 (ix2 (⟨(j 1).val, idx2_lt1 j⟩ : Fin 128) k))
    + b2r (ix2 (0 : Fin 1) (⟨(j 1).val, idx2_lt1 j⟩ : Fin 128))) 0

def attOfArr (o : (⟨2, ![10240, 128]⟩ : Shape).Idx → EReal) (Wa1 : (⟨2, ![64, 128]⟩ : Shape).Idx → EReal)
    (ba1r : (⟨2, ![1, 64]⟩ : Shape).Idx → EReal) (Wa2 : (⟨2, ![1, 64]⟩ : Shape).Idx → EReal)
    (ba2r : (⟨2, ![1, 1]⟩ : Shape).Idx → EReal) : (⟨2, ![10240, 1]⟩ : Shape).Idx → EReal :=
  fun j => Ideal.logistic
    ((∑ q : Fin 64,
        max ((∑ p : Fin 128, o (ix2 (⟨(j 0).val, idx2_lt0 j⟩ : Fin 10240) p) * Wa1 (ix2 q p)) + ba1r (ix2 (0 : Fin 1) q)) 0
          * Wa2 (ix2 (0 : Fin 1) q))
      + ba2r (ix2 (0 : Fin 1) (0 : Fin 1)))

end Cert.Spec

end
-- ==== Proof.LibMatmul.lean ====
import Idealize.ShloMosaic.Lib.ValueIdx
import Idealize.ShloMosaic.PureOps.Ideal.Laws

noncomputable section

open scoped BigOperators

namespace Cert.LibMatmul

open Idealize.ShloMosaic Idealize.ShloMosaic.ValueIdx

-- A rows-by-contraction times contraction-by-columns product into a zero accumulator, at (p, q): the sum over k of a(p, k) · b(k, q).
theorem plain_apply {M K N : ℕ} {φ₁ φ₂ : FTy} (a : FVec Ideal ⟨2, ![M, K]⟩ φ₁) (b : FVec Ideal ⟨2, ![K, N]⟩ φ₂) (p : Fin M) (q : Fin N) :
    FloatOps.matmul (DotDims.plain M K N) none a b (constant (F := Ideal) ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun x => Fin.ext (by
      match x with
      | ⟨0, _⟩ => rfl
      | ⟨1, _⟩ => exact hk)
  have er : (DotDims.plain M K N).rhsIdx (ix2 p q) ((contrEquiv1 (DotDims.plain M K N) K rfl rfl).symm k) = ix2 k q :=
    funext fun x => Fin.ext (by
      match x with
      | ⟨0, _⟩ => exact hk
      | ⟨1, _⟩ => rfl)
  rw [el, er]

end Cert.LibMatmul

end
-- ==== Proof.KI.Val0.lean ====
import proofs.«424795_j47278999994618_2_alg».proof.Proof.KI.R0
import proofs.«424795_j47278999994618_2_alg».proof.Proof.Spec
import proofs.«424795_j47278999994618_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen

theorem fc1_mm_apply (A : FVec Ideal S1024x384 .bf16) (B : FVec Ideal S384x256 .bf16) (p : Fin 1024) (q : Fin 256) :
    matmul dot_S1024x384_S384x256_S1024x256_1_0_0_1_n_n none A B (constant (F := Ideal) S1024x256 .f32 0x00000000#32) (ix2 p q)
      = ∑ k : Fin 384, A (ix2 p k) * B (ix2 k q) :=
  Cert.LibMatmul.plain_apply _ _ _ _

theorem fc1_tr_apply (W : FVec Ideal S256x384 .bf16) (k : Fin 384) (q : Fin 256) :
    transpose S384x256 [1, 0] W transposes_S256x384_p1_0_S384x256 (ix2 k q) = W (ix2 q k) :=
  transpose_apply [1, 0] W transposes_S256x384_p1_0_S384x256 (ix2 k q) (ix2 q k) (fun b => match b with
    | ⟨0, _⟩ => rfl
    | ⟨1, _⟩ => rfl)

theorem fc1_bias_apply (b : FVec Ideal S1x256 .f32) (p : Fin 1024) (q : Fin 256) :
    broadcastTo S1024x256 (shapeCast S1x256 b shapeCasts_S1x256_S1x256) broadcasts_S1x256_S1024x256 (ix2 p q) = b (ix2 (0 : Fin 1) q) := by
  rw [shapeCast_self]
  exact broadcastTo_apply b broadcasts_S1x256_S1024x256 (ix2 p q) (ix2 (0 : Fin 1) q) (fun a => match a with
    | ⟨0, _⟩ => rfl
    | ⟨1, _⟩ => rfl)

theorem fc1_rowbit (n p : Nat) (hn : n < 10) (hp : p < 1024) :
    IntOp.cmpi .slt (IntOp.addi (Scalar.muli (BitVec.ofNat 32 n) 1024#32) (BitVec.ofNat 32 p)) 10000#32
      = if n * 1024 + p < 10000 then 1#1 else 0#1 := by
  have hx : BitVec.ofNat 32 n * 1024#32 + BitVec.ofNat 32 p = BitVec.ofNat 32 (n * 1024 + p) := by
    apply BitVec.eq_of_toNat_eq
    simp only [BitVec.toNat_add, BitVec.toNat_mul, BitVec.toNat_ofNat]
    omega
  have hti : (BitVec.ofNat 32 (n * 1024 + p)).toInt = ((n * 1024 + p : Nat) : Int) := by
    have hnat : (BitVec.ofNat 32 (n * 1024 + p)).toNat = n * 1024 + p := by
      rw [BitVec.toNat_ofNat]; omega
    rw [BitVec.toInt_eq_toNat_of_lt (by rw [hnat]; omega), hnat]
  have hc : (10000#32 : BitVec 32).toInt = 10000 := by decide
  show BitVec.ofBool ((BitVec.ofNat 32 n * 1024#32 + BitVec.ofNat 32 p).slt 10000#32) = _
  rw [hx, BitVec.slt, hti, hc]
  by_cases h : n * 1024 + p < 10000
  · rw [if_pos h, decide_eq_true (by omega)]; rfl
  · rw [if_neg h, decide_eq_false (by omega)]; rfl

theorem fc1_cmpi_at {s : Shape} {w : Nat} (pr : CmpIPredicate) (a b : IVec s w) (j : s.Idx) : cmpi pr a b j = IntOp.cmpi pr (a j) (b j) := rfl
theorem fc1_addi_at {s : Shape} {w : Nat} (a b : IVec s w) (j : s.Idx) : addi a b j = IntOp.addi (a j) (b j) := rfl

theorem fc1_pay_apply (i : grid0.Coords) (x : FVec Ideal S1024x384 .f32) (W : FVec Ideal S256x384 .f32) (b : FVec Ideal S1x256 .f32)
    (p : Fin 1024) (q : Fin 256) :
    k0_pay1 (F := Ideal) i x W b (ix2 p q)
      = if (i 0).val * 1024 + p.val < 10000 then max ((∑ k : Fin 384, x (ix2 p k) * W (ix2 q k)) + b (ix2 (0 : Fin 1) q)) 0 else 0 := by
  have hn : (i 0).val < 10 := (i 0).isLt
  have e0 : iota .tc S1024x256 32 [0] iota_S1024x256_d0_w32 (ix2 p q) = BitVec.ofNat 32 p.val :=
    iota_single_apply _ _ _ _ _ _
  have hz : FloatOps.ofBits (F := Ideal) .f32 0x00000000#32 = (0 : EReal) := Ideal.ofBits_zero_f32
  unfold Gen.k0_pay1
  dsimp only
  rw [shapeCast_self]
  simp only [truncf_apply, select_apply, maximumf_apply, addf_apply, broadcast_apply, fc1_cmpi_at, fc1_addi_at]
  rw [e0, fc1_rowbit (i 0).val p.val hn p.isLt, fc1_bias_apply,
    fc1_mm_apply (truncf .bf16 x bitsLt_bf16_f32) (transpose S384x256 [1, 0] (truncf .bf16 W bitsLt_bf16_f32) transposes_S256x384_p1_0_S384x256) p q,
    hz]
  simp only [truncf_apply]
  have hsum : (∑ k : Fin 384, x (ix2 p k)
        * transpose S384x256 [1, 0] (truncf .bf16 W bitsLt_bf16_f32) transposes_S256x384_p1_0_S384x256 (ix2 k q))
      = ∑ k : Fin 384, x (ix2 p k) * W (ix2 q k) :=
    Finset.sum_congr rfl fun k _ => congrArg (x (ix2 p k) * ·) (fc1_tr_apply (truncf .bf16 W bitsLt_bf16_f32) k q)
  rw [hsum]
  by_cases h : (i 0).val * 1024 + p.val < 10000
  · rw [if_pos h, if_pos h, select_one]
  · rw [if_neg h, if_neg h, select_zero]

variable (V : (c : Dev nD) → (b : Ref sig .tc) → Buf (Elt Ideal) ((c : Thread nD τ).loc b))

abbrev fc1_xarr (c : Dev nD) : FVec Ideal S10240x384 .f32 := V c main_v30
abbrev fc1_warr (c : Dev nD) : FVec Ideal S256x384 .f32 := V c main_arg2
abbrev fc1_barr (c : Dev nD) : FVec Ideal S1x256 .f32 := V c main_v31

abbrev fc1_xblk (c : Dev nD) (t : Fin cfg0.N) : FVec Ideal S1024x384 .f32 := Hand.iblk0 (F := Ideal) V c 0 t
abbrev fc1_wblk (c : Dev nD) (t : Fin cfg0.N) : FVec Ideal S256x384 .f32 := Hand.iblk0 (F := Ideal) V c 1 t
abbrev fc1_bblk (c : Dev nD) (t : Fin cfg0.N) : FVec Ideal S1x256 .f32 := Hand.iblk0 (F := Ideal) V c 2 t

theorem fc1_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

theorem fc1_point_lt (t : Fin cfg0.N) : t.val < 10 := lt_of_lt_of_eq t.isLt N_0

theorem fc1_xblk_apply (c : Dev nD) (t : Fin cfg0.N) (p : Fin 1024) (k : Fin 384) (h : t.val * 1024 + p.val < 10240) :
    fc1_xblk V c t (ix2 p k) = fc1_xarr V c (ix2 (⟨t.val * 1024 + p.val, h⟩ : Fin 10240) k) := by
  obtain ⟨e00, e01, -, -, -, -, -, -, -⟩ := fc1_idx_facts t
  show fc1_xarr V c (((cfg0.win 0).blk t).view.emb (ix2 p k)) = _
  refine congrArg (fc1_xarr V c) (funext fun a => Fin.ext ?_)
  match a with
  | ⟨0, _⟩ => show win0_0.index t (0 : Fin 2) * 1024 + 1 * p.val = t.val * 1024 + p.val; omega
  | ⟨1, _⟩ => show win0_0.index t (1 : Fin 2) * 384 + 1 * k.val = k.val; omega

theorem fc1_wblk_apply (c : Dev nD) (t : Fin cfg0.N) (q : Fin 256) (k : Fin 384) :
    fc1_wblk V c t (ix2 q k) = fc1_warr V c (ix2 q k) := by
  obtain ⟨-, -, e10, e11, -, -, -, -, -⟩ := fc1_idx_facts t
  show fc1_warr V c (((cfg0.win 1).blk t).view.emb (ix2 q k)) = _
  refine congrArg (fc1_warr V c) (funext fun a => Fin.ext ?_)
  match a with
  | ⟨0, _⟩ => show win0_1.index t (0 : Fin 2) * 256 + 1 * q.val = q.val; omega
  | ⟨1, _⟩ => show win0_1.index t (1 : Fin 2) * 384 + 1 * k.val = k.val; omega

theorem fc1_bblk_apply (c : Dev nD) (t : Fin cfg0.N) (q : Fin 256) :
    fc1_bblk V c t (ix2 (0 : Fin 1) q) = fc1_barr V c (ix2 (0 : Fin 1) q) := by
  obtain ⟨-, -, -, -, e20, e21, -, -, -⟩ := fc1_idx_facts t
  show fc1_barr V c (((cfg0.win 2).blk t).view.emb (ix2 (0 : Fin 1) q)) = _
  refine congrArg (fc1_barr V c) (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

theorem fc1_flushed_eq (c : Dev nD) (t : Fin cfg0.N) :
    (Hand.dat0 (F := Ideal) V c).flushed 3 t
      = ((cfg0.win 3).blk t).view.read (Elt Ideal) (Cert.Spec.fc1Arr (fc1_xarr V c) (fc1_warr V c) (fc1_barr V c)) := by
  show (cfg0.win 3).cut (grid0.coords t) ((Hand.dat0 (F := Ideal) V c).after 3 t) = _
  rw [Hand.after0_3]
  obtain ⟨-, -, -, -, -, -, e30, e31, eg⟩ := fc1_idx_facts t
  have ht := fc1_point_lt t
  funext j
  obtain ⟨p, q, rfl⟩ : ∃ (p : Fin 1024) (q : Fin 256), j = ix2 p q := ⟨j 0, j 1, eq_ix2 j⟩
  have hr : t.val * 1024 + p.val < 10240 := by have := p.isLt; omega

  refine (fc1_pay_apply (grid0.coords t) (fc1_xblk V c t) (fc1_wblk V c t) (fc1_bblk V c t) p q).trans ?_
  rw [eg, fc1_bblk_apply V c t q,
    Finset.sum_congr rfl fun k _ => by rw [fc1_xblk_apply V c t p k hr, fc1_wblk_apply V c t q k]]

  have hemb : ((cfg0.win 3).blk t).view.emb (ix2 p q) = (ix2 (⟨t.val * 1024 + p.val, hr⟩ : Fin 10240) q : S10240x256.Idx) := by
    funext a; apply Fin.ext
    match a with
    | ⟨0, _⟩ => show win0_3.index t (0 : Fin 2) * 1024 + 1 * p.val = t.val * 1024 + p.val; omega
    | ⟨1, _⟩ => show win0_3.index t (1 : Fin 2) * 256 + 1 * q.val = q.val; omega
  show _ = Cert.Spec.fc1Arr (fc1_xarr V c) (fc1_warr V c) (fc1_barr V c) (((cfg0.win 3).blk t).view.emb (ix2 p q))
  rw [hemb]
  rfl

theorem fc1_mem_blk (t : Fin cfg0.N) (i : S10240x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v32).slice (win0_3.rect t)).set ↔ _
  rw [View.set_slice_whole, Rect.mem_set_unit]
  exact Iff.rfl

theorem fc1_cover (i : S10240x256.Idx) :
    ∃ t : Fin cfg0.N, (cfg0.win 3).flush t = true ∧ i ∈ ((cfg0.win 3).blk t).view.set := by
  have hi0 : (i 0).val < 10240 := (i 0).isLt
  have hi1 : (i 1).val < 256 := (i 1).isLt
  have hN : cfg0.N = 10 := N_0
  let t : Fin cfg0.N := ⟨(i 0).val / 1024, by rw [hN]; omega⟩
  have htv : t.val = (i 0).val / 1024 := rfl
  obtain ⟨-, -, -, -, -, -, e30, e31, -⟩ := fc1_idx_facts t
  refine ⟨t, flush0_3 t, ?_⟩
  rw [fc1_mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

theorem arr0_final (V : (c : Dev nD) → (b : Ref sig .tc) → Buf (Elt Ideal) ((c : Thread nD τ).loc b)) (c : Dev nD) :
    (Hand.dat0 (F := Ideal) V c).arrAt 3 cfg0.N = Cert.Spec.fc1Arr (V c main_v30) (V c main_arg2) (V c main_v31) :=
  (Hand.dat0 (F := Ideal) V c).arrAt_eq_of_cover 3 (Cert.Spec.fc1Arr (fc1_xarr V c) (fc1_warr V c) (fc1_barr V c))
    (fun t _ => fc1_flushed_eq V c t) fc1_cover

end Cert.KernelIdeal.Val

end
-- ==== Proof.KI.Val1.lean ====
import proofs.«424795_j47278999994618_2_alg».proof.Proof.KI.R1
import proofs.«424795_j47278999994618_2_alg».proof.Proof.Spec
import proofs.«424795_j47278999994618_2_alg».proof.Proof.LibMatmul
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe

theorem matmul1_apply (a : FVec Ideal S1024x2048 .bf16) (hs : FVec Ideal S2048x256 .bf16) (r : Fin 1024) (cc : Fin 256) :
    matmul dot_S1024x2048_S2048x256_S1024x256_1_0_0_1_n_n none a hs (constant (F := Ideal) S1024x256 .f32 0x00000000#32) (ix2 r cc)
      = ∑ q : Fin 2048, a (ix2 r q) * hs (ix2 q cc) :=
  Cert.LibMatmul.plain_apply _ _ _ _

theorem k1_pay1_apply (j : S1024x256.Idx) : (k1_pay1 (F := Ideal)) j = 0 := by
  unfold k1_pay1
  rw [shapeCast_self]
  exact Ideal.ofBits_zero_f32

theorem k1_pay2_apply (a : Vec Ideal S1024x2048 .bf16) (hs : Vec Ideal S2048x256 .bf16) (acc : Vec Ideal S1024x256 .f32)
    (r : Fin 1024) (cc : Fin 256) :
    k1_pay2 a hs acc (ix2 r cc) = acc (ix2 r cc) + ∑ q : Fin 2048, a (ix2 r q) * hs (ix2 q cc) := by
  unfold k1_pay2
  rw [shapeCast_self, shapeCast_self, shapeCast_self]
  exact congrArg (acc (ix2 r cc) + ·) (matmul1_apply a hs r cc)

theorem k1_pay3_apply (ht : Vec Ideal S1024x256 .bf16) (acc : Vec Ideal S1024x256 .f32) (inv : Vec Ideal S1024x1 .f32)
    (r : Fin 1024) (cc : Fin 256) :
    k1_pay3 ht acc inv (ix2 r cc)
      = Ideal.ofBits .f32 0x3F333333#32 * ht (ix2 r cc)
        + (Ideal.ofBits .f32 0x3E99999A#32 * acc (ix2 r cc)) * inv (ix2 r (0 : Fin 1)) := by
  unfold k1_pay3
  rw [shapeCast_self, shapeCast_self]
  refine congrArg (fun z => Ideal.ofBits .f32 0x3F333333#32 * ht (ix2 r cc) + (Ideal.ofBits .f32 0x3E99999A#32 * acc (ix2 r cc)) * z) ?_
  exact broadcastTo_apply inv broadcasts_S1024x1_S1024x256 (ix2 r cc) (ix2 r (0 : Fin 1)) (fun a => by
    match a with
    | ⟨0, _⟩ => rfl
    | ⟨1, _⟩ => rfl)

section Blocks

variable (V : (c : Dev nD) → (b : Ref sig .tc) → Buf (Elt Ideal) ((c : Thread nD τ).loc b))

theorem idx_facts1 : ∀ t : Fin cfg1.N, win1_0.index t (0 : Fin 2) = t.val / 5 ∧ win1_0.index t (1 : Fin 2) = t.val % 5
    ∧ win1_2.index t (0 : Fin 2) = t.val / 5 ∧ win1_2.index t (1 : Fin 2) = 0
    ∧ win1_3.index t (0 : Fin 2) = t.val / 5 ∧ win1_3.index t (1 : Fin 2) = 0 :=
  (by decide +kernel : ∀ t : Fin grid1.N, _)

theorem ablk1_apply (c : Dev nD) (t : Fin cfg1.N) (r : Fin 1024) (q : Fin 2048) :
    (iblk1 V c 0 t : Vec Ideal S1024x2048 .bf16) (ix2 r q)
      = (V c main_v29 : S10240x10240.Idx → EReal) (ix2 (⟨1024 * (t.val / 5) + r.val, by have hN : t.val < 50 := lt_of_lt_of_eq t.isLt N_1; have := r.isLt; omega⟩ : Fin 10240) (⟨2048 * (t.val % 5) + q.val, by have := q.isLt; omega⟩ : Fin 10240)) := by
  obtain ⟨e0, e1, -⟩ := idx_facts1 t
  unfold iblk1
  rw [View.read_apply]
  show V c main_v29 _ = V c main_v29 _
  refine congrArg (V c main_v29) (funext fun a => Fin.ext ?_)
  match a with
  | ⟨0, _⟩ => show win1_0.index t (0 : Fin 2) * 1024 + 1 * r.val = 1024 * (t.val / 5) + r.val; rw [e0]; omega
  | ⟨1, _⟩ => show win1_0.index t (1 : Fin 2) * 2048 + 1 * q.val = 2048 * (t.val % 5) + q.val; rw [e1]; omega

theorem sblk1_apply (c : Dev nD) (t : Fin cfg1.N) (r : Fin 1024) :
    (iblk1 V c 2 t : Vec Ideal S1024x1 .f32) (ix2 r (0 : Fin 1))
      = (V c main_v12 : S10240x1.Idx → EReal) (ix2 (⟨1024 * (t.val / 5) + r.val, by have hN : t.val < 50 := lt_of_lt_of_eq t.isLt N_1; have := r.isLt; omega⟩ : Fin 10240) (0 : Fin 1)) := by
  obtain ⟨-, -, e0, e1, -⟩ := idx_facts1 t
  unfold iblk1
  rw [View.read_apply]
  show V c main_v12 _ = V c main_v12 _
  refine congrArg (V c main_v12) (funext fun a => Fin.ext ?_)
  match a with
  | ⟨0, _⟩ => show win1_2.index t (0 : Fin 2) * 1024 + 1 * r.val = 1024 * (t.val / 5) + r.val; rw [e0]; omega
  | ⟨1, _⟩ => show win1_2.index t (1 : Fin 2) * 1 + 1 * 0 = 0; rw [e1]

def term1 (A : S10240x10240.Idx → EReal) (H : S10240x256.Idx → EReal) (i : Fin 10240) (cc : Fin 256) (n : ℕ) : EReal :=
  if h : n < 10240 then A (ix2 i (⟨n, h⟩ : Fin 10240)) * H (ix2 (⟨n, h⟩ : Fin 10240) cc) else 0

theorem term1_eq (A : S10240x10240.Idx → EReal) (H : S10240x256.Idx → EReal)
    (a : Vec Ideal S1024x2048 .bf16) (hs : Vec Ideal S2048x256 .bf16) (r : Fin 1024) (q : Fin 2048) (cc : Fin 256)
    (i i' k' k'' : Fin 10240) (cc' : Fin 256) (n : ℕ)
    (ha : a (ix2 r q) = A (ix2 i' k')) (hh : hs (ix2 q cc) = H (ix2 k'' cc'))
    (hi : i'.val = i.val) (hk' : k'.val = n) (hk'' : k''.val = n) (hc : cc'.val = cc.val) :
    a (ix2 r q) * hs (ix2 q cc) = term1 A H i cc n := by
  have hn : n < 10240 := hk' ▸ k'.isLt
  have e1 : i' = i := Fin.ext hi
  have e2 : cc' = cc := Fin.ext hc
  have e3 : k' = (⟨n, hn⟩ : Fin 10240) := Fin.ext hk'
  have e4 : k'' = (⟨n, hn⟩ : Fin 10240) := Fin.ext hk''
  rw [ha, hh, e1, e2, e3, e4]
  unfold term1
  rw [dif_pos hn]

theorem acc1_apply (c : Dev nD) (cc : Fin 256) (n : ℕ) : ∀ (hn : n < cfg1.N) (i : Fin 10240) (r : Fin 1024),
    i.val = 1024 * (n / 5) + r.val →
    accAt1 V c n hn (ix2 r cc) = ∑ k ∈ Finset.range (2048 * (n % 5 + 1)), term1 (V c main_v29) (V c main_v32) i cc k := by
  induction n using Nat.strong_induction_on with
  | _ n ih =>
    intro hn i r hi
    have hN : n < 50 := lt_of_lt_of_eq hn N_1
    by_cases h : n % 5 = 0
    · refine (congrFun (accAt1_first V c ⟨n, hn⟩ h) (ix2 r cc)).trans ?_
      refine (k1_pay2_apply (iblk1 V c 0 ⟨n, hn⟩) (hsAt1 V c ⟨n, hn⟩) (k1_pay1 (F := Ideal)) r cc).trans ?_
      have e2 : 2048 * (n % 5 + 1) = 2048 := by omega
      rw [k1_pay1_apply, zero_add, e2, Finset.sum_range]
      refine Finset.sum_congr rfl fun q _ => ?_
      exact term1_eq (V c main_v29) (V c main_v32) (iblk1 V c 0 ⟨n, hn⟩) (hsAt1 V c ⟨n, hn⟩) r q cc i _ _ _ _ q.val
        (ablk1_apply V c ⟨n, hn⟩ r q) (hsAt1_apply V c ⟨n, hn⟩ (ix2 q cc))
        (by show 1024 * (n / 5) + r.val = i.val; omega)
        (by show 2048 * (n % 5) + q.val = q.val; omega) (by show 2048 * (n % 5) + q.val = q.val; omega) rfl
    · refine (congrFun (accAt1_next V c ⟨n, hn⟩ h) (ix2 r cc)).trans ?_
      refine (k1_pay2_apply (iblk1 V c 0 ⟨n, hn⟩) (hsAt1 V c ⟨n, hn⟩) _ r cc).trans ?_
      have e2 : 2048 * (n % 5 + 1) = 2048 * ((n - 1) % 5 + 1) + 2048 := by omega
      rw [e2, Finset.sum_range_add, Finset.sum_range (fun x => term1 (V c main_v29) (V c main_v32) i cc (2048 * ((n - 1) % 5 + 1) + x))]
      refine congrArg₂ (· + ·) (ih (n - 1) (by omega) _ i r (by omega)) ?_
      refine Finset.sum_congr rfl fun q _ => ?_
      exact term1_eq (V c main_v29) (V c main_v32) (iblk1 V c 0 ⟨n, hn⟩) (hsAt1 V c ⟨n, hn⟩) r q cc i _ _ _ _ _
        (ablk1_apply V c ⟨n, hn⟩ r q) (hsAt1_apply V c ⟨n, hn⟩ (ix2 q cc))
        (by show 1024 * (n / 5) + r.val = i.val; omega)
        (by show 2048 * (n % 5) + q.val = 2048 * ((n - 1) % 5 + 1) + q.val; omega)
        (by show 2048 * (n % 5) + q.val = 2048 * ((n - 1) % 5 + 1) + q.val; omega) rfl

theorem blend1_eq (A : S10240x10240.Idx → EReal) (H : S10240x256.Idx → EReal) (I : S10240x1.Idx → EReal)
    (ht : Vec Ideal S1024x256 .bf16) (acc : Vec Ideal S1024x256 .f32) (inv : Vec Ideal S1024x1 .f32)
    (r : Fin 1024) (cc : Fin 256) (j : S10240x256.Idx) (hj1 : (j 1).val = cc.val)
    (hht : ht (ix2 r cc) = H j)
    (hacc : acc (ix2 r cc) = ∑ k ∈ Finset.range 10240, term1 A H (⟨(j 0).val, idx2_lt0 j⟩ : Fin 10240) cc k)
    (hinv : inv (ix2 r (0 : Fin 1)) = I (ix2 (⟨(j 0).val, idx2_lt0 j⟩ : Fin 10240) (0 : Fin 1))) :
    k1_pay3 ht acc inv (ix2 r cc) = Cert.Spec.gcnArr A H I j := by
  rw [k1_pay3_apply, hht, hacc, hinv, Finset.sum_range]
  unfold Cert.Spec.gcnArr Cert.Spec.c07 Cert.Spec.c03
  obtain rfl : (⟨(j 1).val, idx2_lt1 j⟩ : Fin 256) = cc := Fin.ext hj1
  refine congrArg (fun z => Ideal.ofBits .f32 0x3F333333#32 * H j + (Ideal.ofBits .f32 0x3E99999A#32 * z) * I (ix2 (⟨(j 0).val, idx2_lt0 j⟩ : Fin 10240) (0 : Fin 1))) ?_
  refine Finset.sum_congr rfl fun k _ => ?_
  unfold term1
  rw [dif_pos k.isLt]

theorem flushed1_eq (c : Dev nD) (t : Fin cfg1.N) (hf : (cfg1.win 3).flush t = true) :
    (dat1 V c).flushed 3 t
      = ((cfg1.win 3).blk t).view.read (Elt Ideal) (Cert.Spec.gcnArr (V c main_v29) (V c main_v32) (V c main_v12)) := by
  have h4 : t.val % 5 = 4 := (flush1_3 t).mp hf
  have hc : k1_cond2 (grid1.coords t) = 1#1 := (hlast1 t).mpr h4
  have hN : t.val < 50 := lt_of_lt_of_eq t.isLt N_1
  obtain ⟨-, -, -, -, e0, e1⟩ := idx_facts1 t
  show (cfg1.win 3).cut (grid1.coords t) ((dat1 V c).after 3 t) = _
  rw [after1_3 V c t hc]
  funext y
  obtain ⟨r, cc, rfl⟩ : ∃ (r : Fin 1024) (cc : Fin 256), y = ix2 r cc := ⟨y 0, y 1, eq_ix2 y⟩
  rw [View.read_apply]
  show k1_pay3 (htAt1 V c t hc) (accAt1 V c t.val t.isLt) (iblk1 V c 2 t) (ix2 r cc)
    = Cert.Spec.gcnArr (V c main_v29) (V c main_v32) (V c main_v12) (((cfg1.win 3).blk t).view.emb (ix2 r cc))
  have hj0 : ((((cfg1.win 3).blk t).view.emb (ix2 r cc)) 0).val = 1024 * (t.val / 5) + r.val := by
    show win1_3.index t (0 : Fin 2) * 1024 + 1 * r.val = _
    rw [e0]; omega
  have hj1 : ((((cfg1.win 3).blk t).view.emb (ix2 r cc)) 1).val = cc.val := by
    show win1_3.index t (1 : Fin 2) * 256 + 1 * cc.val = _
    rw [e1]; omega
  refine blend1_eq (V c main_v29) (V c main_v32) (V c main_v12) (htAt1 V c t hc) (accAt1 V c t.val t.isLt) (iblk1 V c 2 t)
    r cc _ hj1 ?_ ?_ ?_
  · refine (htAt1_apply V c t hc (ix2 r cc)).trans (congrArg (V c main_v32) (funext fun a => Fin.ext ?_))
    match a with
    | ⟨0, _⟩ => exact hj0.symm
    | ⟨1, _⟩ => exact hj1.symm
  · refine (acc1_apply V c cc t.val t.isLt _ r hj0).trans ?_
    rw [show 2048 * (t.val % 5 + 1) = 10240 by omega]
    rfl
  · refine (sblk1_apply V c t r).trans (congrArg (fun z => V c main_v12 (ix2 z (0 : Fin 1))) (Fin.ext ?_))
    exact hj0.symm

theorem mem_blk1 (t : Fin cfg1.N) (i : S10240x256.Idx) :
    i ∈ ((cfg1.win 3).blk t).view.set
      ↔ ∀ a : Fin 2, win1_3.index t a * S1024x256.size a ≤ (i a).val ∧ (i a).val < win1_3.index t a * S1024x256.size a + S1024x256.size a := by
  show i ∈ ((View.whole (Pipeline.arrRef spec1 3)).slice (win1_3.rect t)).set ↔ _
  rw [View.set_slice_whole, Rect.mem_set_unit]
  exact Iff.rfl

theorem cover1 (i : S10240x256.Idx) : ∃ t : Fin cfg1.N, (cfg1.win 3).flush t = true ∧ i ∈ ((cfg1.win 3).blk t).view.set := by
  have h0 : (i 0).val < 10240 := idx2_lt0 i
  have h1 : (i 1).val < 256 := idx2_lt1 i
  have hN : cfg1.N = 50 := N_1
  obtain ⟨t, ht⟩ : ∃ t : Fin cfg1.N, t.val = 5 * ((i 0).val / 1024) + 4 := ⟨⟨5 * ((i 0).val / 1024) + 4, by rw [hN]; omega⟩, rfl⟩
  obtain ⟨-, -, -, -, e0, e1⟩ := idx_facts1 t
  refine ⟨t, (flush1_3 t).mpr (by rw [ht]; omega), ?_⟩
  rw [mem_blk1]
  intro a
  match a with
  | ⟨0, _⟩ =>
    show win1_3.index t (0 : Fin 2) * 1024 ≤ (i 0).val ∧ (i 0).val < win1_3.index t (0 : Fin 2) * 1024 + 1024
    rw [e0, ht]; omega
  | ⟨1, _⟩ =>
    show win1_3.index t (1 : Fin 2) * 256 ≤ (i 1).val ∧ (i 1).val < win1_3.index t (1 : Fin 2) * 256 + 256
    rw [e1]; omega

end Blocks

theorem arr1_final (V : (c : Dev nD) → (b : Ref sig .tc) → Buf (Elt Ideal) ((c : Thread nD τ).loc b)) (c : Dev nD) :
    (Hand.dat1 (F := Ideal) V c).arrAt 3 cfg1.N = Cert.Spec.gcnArr (V c main_v29) (V c main_v32) (V c main_v12) :=
  (Hand.dat1 (F := Ideal) V c).arrAt_eq_of_cover 3 _ (flushed1_eq V c) cover1

end Cert.KernelIdeal.Val

end
-- ==== Proof.KI.Val2.lean ====
import proofs.«424795_j47278999994618_2_alg».proof.Proof.KI.R2
import proofs.«424795_j47278999994618_2_alg».proof.Proof.KI.Val1
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe

section Blocks

variable (V : (c : Dev nD) → (b : Ref sig .tc) → Buf (Elt Ideal) ((c : Thread nD τ).loc b))

theorem idx_facts2 : ∀ t : Fin cfg2.N, win2_0.index t (0 : Fin 2) = t.val / 5 ∧ win2_0.index t (1 : Fin 2) = t.val % 5
    ∧ win2_2.index t (0 : Fin 2) = t.val / 5 ∧ win2_2.index t (1 : Fin 2) = 0
    ∧ win2_3.index t (0 : Fin 2) = t.val / 5 ∧ win2_3.index t (1 : Fin 2) = 0 :=
  (by decide +kernel : ∀ t : Fin grid2.N, _)

theorem ablk2_apply (c : Dev nD) (t : Fin cfg2.N) (r : Fin 1024) (q : Fin 2048) :
    (iblk2 V c 0 t : Vec Ideal S1024x2048 .bf16) (ix2 r q)
      = (V c main_v29 : S10240x10240.Idx → EReal) (ix2 (⟨1024 * (t.val / 5) + r.val, by have hN : t.val < 50 := lt_of_lt_of_eq t.isLt N_2; have := r.isLt; omega⟩ : Fin 10240) (⟨2048 * (t.val % 5) + q.val, by have := q.isLt; omega⟩ : Fin 10240)) := by
  obtain ⟨e0, e1, -⟩ := idx_facts2 t
  unfold iblk2
  rw [View.read_apply]
  show V c main_v29 _ = V c main_v29 _
  refine congrArg (V c main_v29) (funext fun a => Fin.ext ?_)
  match a with
  | ⟨0, _⟩ => show win2_0.index t (0 : Fin 2) * 1024 + 1 * r.val = 1024 * (t.val / 5) + r.val; rw [e0]; omega
  | ⟨1, _⟩ => show win2_0.index t (1 : Fin 2) * 2048 + 1 * q.val = 2048 * (t.val % 5) + q.val; rw [e1]; omega

theorem sblk2_apply (c : Dev nD) (t : Fin cfg2.N) (r : Fin 1024) :
    (iblk2 V c 2 t : Vec Ideal S1024x1 .f32) (ix2 r (0 : Fin 1))
      = (V c main_v12 : S10240x1.Idx → EReal) (ix2 (⟨1024 * (t.val / 5) + r.val, by have hN : t.val < 50 := lt_of_lt_of_eq t.isLt N_2; have := r.isLt; omega⟩ : Fin 10240) (0 : Fin 1)) := by
  obtain ⟨-, -, e0, e1, -⟩ := idx_facts2 t
  unfold iblk2
  rw [View.read_apply]
  show V c main_v12 _ = V c main_v12 _
  refine congrArg (V c main_v12) (funext fun a => Fin.ext ?_)
  match a with
  | ⟨0, _⟩ => show win2_2.index t (0 : Fin 2) * 1024 + 1 * r.val = 1024 * (t.val / 5) + r.val; rw [e0]; omega
  | ⟨1, _⟩ => show win2_2.index t (1 : Fin 2) * 1 + 1 * 0 = 0; rw [e1]

theorem acc2_apply (c : Dev nD) (cc : Fin 256) (n : ℕ) : ∀ (hn : n < cfg2.N) (i : Fin 10240) (r : Fin 1024),
    i.val = 1024 * (n / 5) + r.val →
    accAt2 V c n hn (ix2 r cc) = ∑ k ∈ Finset.range (2048 * (n % 5 + 1)), term1 (V c main_v29) (V c main_v33) i cc k := by
  induction n using Nat.strong_induction_on with
  | _ n ih =>
    intro hn i r hi
    have hN : n < 50 := lt_of_lt_of_eq hn N_2
    by_cases h : n % 5 = 0
    · refine (congrFun (accAt2_first V c ⟨n, hn⟩ h) (ix2 r cc)).trans ?_
      refine (k1_pay2_apply (iblk2 V c 0 ⟨n, hn⟩) (hsAt2 V c ⟨n, hn⟩) (k1_pay1 (F := Ideal)) r cc).trans ?_
      have e2 : 2048 * (n % 5 + 1) = 2048 := by omega
      rw [k1_pay1_apply, zero_add, e2, Finset.sum_range]
      refine Finset.sum_congr rfl fun q _ => ?_
      exact term1_eq (V c main_v29) (V c main_v33) (iblk2 V c 0 ⟨n, hn⟩) (hsAt2 V c ⟨n, hn⟩) r q cc i _ _ _ _ q.val
        (ablk2_apply V c ⟨n, hn⟩ r q) (hsAt2_apply V c ⟨n, hn⟩ (ix2 q cc))
        (by show 1024 * (n / 5) + r.val = i.val; omega)
        (by show 2048 * (n % 5) + q.val = q.val; omega) (by show 2048 * (n % 5) + q.val = q.val; omega) rfl
    · refine (congrFun (accAt2_next V c ⟨n, hn⟩ h) (ix2 r cc)).trans ?_
      refine (k1_pay2_apply (iblk2 V c 0 ⟨n, hn⟩) (hsAt2 V c ⟨n, hn⟩) _ r cc).trans ?_
      have e2 : 2048 * (n % 5 + 1) = 2048 * ((n - 1) % 5 + 1) + 2048 := by omega
      rw [e2, Finset.sum_range_add, Finset.sum_range (fun x => term1 (V c main_v29) (V c main_v33) i cc (2048 * ((n - 1) % 5 + 1) + x))]
      refine congrArg₂ (· + ·) (ih (n - 1) (by omega) _ i r (by omega)) ?_
      refine Finset.sum_congr rfl fun q _ => ?_
      exact term1_eq (V c main_v29) (V c main_v33) (iblk2 V c 0 ⟨n, hn⟩) (hsAt2 V c ⟨n, hn⟩) r q cc i _ _ _ _ _
        (ablk2_apply V c ⟨n, hn⟩ r q) (hsAt2_apply V c ⟨n, hn⟩ (ix2 q cc))
        (by show 1024 * (n / 5) + r.val = i.val; omega)
        (by show 2048 * (n % 5) + q.val = 2048 * ((n - 1) % 5 + 1) + q.val; omega)
        (by show 2048 * (n % 5) + q.val = 2048 * ((n - 1) % 5 + 1) + q.val; omega) rfl

theorem flushed2_eq (c : Dev nD) (t : Fin cfg2.N) (hf : (cfg2.win 3).flush t = true) :
    (dat2 V c).flushed 3 t
      = ((cfg2.win 3).blk t).view.read (Elt Ideal) (Cert.Spec.gcnArr (V c main_v29) (V c main_v33) (V c main_v12)) := by
  have h4 : t.val % 5 = 4 := (flush2_3 t).mp hf
  have hc : k1_cond2 (grid2.coords t) = 1#1 := (hlast1 t).mpr h4
  have hN : t.val < 50 := lt_of_lt_of_eq t.isLt N_2
  obtain ⟨-, -, -, -, e0, e1⟩ := idx_facts2 t
  show (cfg2.win 3).cut (grid2.coords t) ((dat2 V c).after 3 t) = _
  rw [after2_3 V c t hc]
  funext y
  obtain ⟨r, cc, rfl⟩ : ∃ (r : Fin 1024) (cc : Fin 256), y = ix2 r cc := ⟨y 0, y 1, eq_ix2 y⟩
  rw [View.read_apply]
  show k1_pay3 (htAt2 V c t hc) (accAt2 V c t.val t.isLt) (iblk2 V c 2 t) (ix2 r cc)
    = Cert.Spec.gcnArr (V c main_v29) (V c main_v33) (V c main_v12) (((cfg2.win 3).blk t).view.emb (ix2 r cc))
  have hj0 : ((((cfg2.win 3).blk t).view.emb (ix2 r cc)) 0).val = 1024 * (t.val / 5) + r.val := by
    show win2_3.index t (0 : Fin 2) * 1024 + 1 * r.val = _
    rw [e0]; omega
  have hj1 : ((((cfg2.win 3).blk t).view.emb (ix2 r cc)) 1).val = cc.val := by
    show win2_3.index t (1 : Fin 2) * 256 + 1 * cc.val = _
    rw [e1]; omega
  refine blend1_eq (V c main_v29) (V c main_v33) (V c main_v12) (htAt2 V c t hc) (accAt2 V c t.val t.isLt) (iblk2 V c 2 t)
    r cc _ hj1 ?_ ?_ ?_
  · refine (htAt2_apply V c t hc (ix2 r cc)).trans (congrArg (V c main_v33) (funext fun a => Fin.ext ?_))
    match a with
    | ⟨0, _⟩ => exact hj0.symm
    | ⟨1, _⟩ => exact hj1.symm
  · refine (acc2_apply V c cc t.val t.isLt _ r hj0).trans ?_
    rw [show 2048 * (t.val % 5 + 1) = 10240 by omega]
    rfl
  · refine (sblk2_apply V c t r).trans (congrArg (fun z => V c main_v12 (ix2 z (0 : Fin 1))) (Fin.ext ?_))
    exact hj0.symm

theorem mem_blk2 (t : Fin cfg2.N) (i : S10240x256.Idx) :
    i ∈ ((cfg2.win 3).blk t).view.set
      ↔ ∀ a : Fin 2, win2_3.index t a * S1024x256.size a ≤ (i a).val ∧ (i a).val < win2_3.index t a * S1024x256.size a + S1024x256.size a := by
  show i ∈ ((View.whole (Pipeline.arrRef spec2 3)).slice (win2_3.rect t)).set ↔ _
  rw [View.set_slice_whole, Rect.mem_set_unit]
  exact Iff.rfl

theorem cover2 (i : S10240x256.Idx) : ∃ t : Fin cfg2.N, (cfg2.win 3).flush t = true ∧ i ∈ ((cfg2.win 3).blk t).view.set := by
  have h0 : (i 0).val < 10240 := idx2_lt0 i
  have h1 : (i 1).val < 256 := idx2_lt1 i
  have hN : cfg2.N = 50 := N_2
  obtain ⟨t, ht⟩ : ∃ t : Fin cfg2.N, t.val = 5 * ((i 0).val / 1024) + 4 := ⟨⟨5 * ((i 0).val / 1024) + 4, by rw [hN]; omega⟩, rfl⟩
  obtain ⟨-, -, -, -, e0, e1⟩ := idx_facts2 t
  refine ⟨t, (flush2_3 t).mpr (by rw [ht]; omega), ?_⟩
  rw [mem_blk2]
  intro a
  match a with
  | ⟨0, _⟩ =>
    show win2_3.index t (0 : Fin 2) * 1024 ≤ (i 0).val ∧ (i 0).val < win2_3.index t (0 : Fin 2) * 1024 + 1024
    rw [e0, ht]; omega
  | ⟨1, _⟩ =>
    show win2_3.index t (1 : Fin 2) * 256 ≤ (i 1).val ∧ (i 1).val < win2_3.index t (1 : Fin 2) * 256 + 256
    rw [e1]; omega

end Blocks

theorem arr2_final (V : (c : Dev nD) → (b : Ref sig .tc) → Buf (Elt Ideal) ((c : Thread nD τ).loc b)) (c : Dev nD) :
    (Hand.dat2 (F := Ideal) V c).arrAt 3 cfg2.N = Cert.Spec.gcnArr (V c main_v29) (V c main_v33) (V c main_v12) :=
  (Hand.dat2 (F := Ideal) V c).arrAt_eq_of_cover 3 _ (flushed2_eq V c) cover2

end Cert.KernelIdeal.Val

end
-- ==== Proof.KI.Val3.lean ====
import proofs.«424795_j47278999994618_2_alg».proof.Proof.KI.R3
import proofs.«424795_j47278999994618_2_alg».proof.Proof.Spec
import proofs.«424795_j47278999994618_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

theorem mmOut_apply {φ₁ φ₂ : FTy} (a : FVec Ideal S1024x256 φ₁) (b : FVec Ideal S256x128 φ₂) (p : Fin 1024) (q : Fin 128) :
    matmul dot_S1024x256_S256x128_S1024x128_1_0_0_1_n_n none a b (constant S1024x128 .f32 0x00000000#32) (ix2 p q)
      = ∑ k : Fin 256, a (ix2 p k) * b (ix2 k q) :=
  Cert.LibMatmul.plain_apply _ _ _ _

theorem mmHid_apply {φ₁ φ₂ : FTy} (a : FVec Ideal S1024x128 φ₁) (b : FVec Ideal S128x64 φ₂) (p : Fin 1024) (q : Fin 64) :
    matmul dot_S1024x128_S128x64_S1024x64_1_0_0_1_n_n none a b (constant S1024x64 .f32 0x00000000#32) (ix2 p q)
      = ∑ k : Fin 128, a (ix2 p k) * b (ix2 k q) :=
  Cert.LibMatmul.plain_apply _ _ _ _

theorem mmLogit_apply {φ₁ φ₂ : FTy} (a : FVec Ideal S1024x64 φ₁) (b : FVec Ideal S64x1 φ₂) (p : Fin 1024) (q : Fin 1) :
    matmul dot_S1024x64_S64x1_S1024x1_1_0_0_1_n_n none a b (constant S1024x1 .f32 0x00000000#32) (ix2 p q)
      = ∑ k : Fin 64, a (ix2 p k) * b (ix2 k q) :=
  Cert.LibMatmul.plain_apply _ _ _ _

theorem pay1_apply (x0 : FVec Ideal S1024x256 .bf16) (x1 : FVec Ideal S128x256 .f32) (x2 : FVec Ideal S1x128 .f32)
    (p : Fin 1024) (q : Fin 128) :
    k3_pay1 (F := Ideal) x0 x1 x2 (ix2 p q)
      = max ((∑ k : Fin 256, x0 (ix2 p k) * x1 (ix2 q k)) + x2 (ix2 (0 : Fin 1) q)) 0 := by
  unfold k3_pay1
  show max (matmul dot_S1024x256_S256x128_S1024x128_1_0_0_1_n_n none _ _ (constant S1024x128 .f32 0x00000000#32) (ix2 p q)
      + broadcastTo S1024x128 _ broadcasts_S1x128_S1024x128 (ix2 p q)) (Ideal.ofBits .f32 0x00000000#32) = _
  rw [mmOut_apply, broadcastTo_1b_ab_apply, shapeCast_self, shapeCast_self, Ideal.ofBits_zero_f32]
  refine congrArg (fun s => max (s + x2 (ix2 (0 : Fin 1) q)) 0) (Finset.sum_congr rfl fun k _ => ?_)
  rw [transpose_ix2_apply]
  rfl

theorem pay2_apply (x0 : FVec Ideal S1024x256 .bf16) (x1 : FVec Ideal S128x256 .f32) (x2 : FVec Ideal S1x128 .f32)
    (x3 : FVec Ideal S64x128 .f32) (x4 : FVec Ideal S1x64 .f32) (x5 : FVec Ideal S1x64 .f32) (x6 : FVec Ideal S1x1 .f32)
    (p : Fin 1024) (z : Fin 1) :
    k3_pay2 (F := Ideal) x0 x1 x2 x3 x4 x5 x6 (ix2 p z)
      = Ideal.logistic ((∑ r : Fin 64,
            max ((∑ o : Fin 128, k3_pay1 (F := Ideal) x0 x1 x2 (ix2 p o) * x3 (ix2 r o)) + x4 (ix2 (0 : Fin 1) r)) 0
              * x5 (ix2 z r))
          + x6 (ix2 (0 : Fin 1) z)) := by
  unfold k3_pay2
  show Ideal.logistic (matmul (F := Ideal) dot_S1024x64_S64x1_S1024x1_1_0_0_1_n_n none _ _ (constant S1024x1 .f32 0x00000000#32) (ix2 p z)
      + broadcastTo S1024x1 _ broadcasts_S1x1_S1024x1 (ix2 p z)) = _
  rw [mmLogit_apply, broadcastTo_1b_ab_apply, shapeCast_self, shapeCast_self]
  refine congrArg (fun s => Ideal.logistic (s + x6 (ix2 (0 : Fin 1) z))) (Finset.sum_congr rfl fun r _ => ?_)
  rw [transpose_ix2_apply]
  refine congrArg (fun s => s * x5 (ix2 z r)) ?_
  show max (matmul (F := Ideal) dot_S1024x128_S128x64_S1024x64_1_0_0_1_n_n none _ _ (constant S1024x64 .f32 0x00000000#32) (ix2 p r)
      + broadcastTo S1024x64 _ broadcasts_S1x64_S1024x64 (ix2 p r)) (Ideal.ofBits .f32 0x00000000#32) = _
  rw [mmHid_apply, broadcastTo_1b_ab_apply, Ideal.ofBits_zero_f32]
  refine congrArg (fun s => max (s + x4 (ix2 (0 : Fin 1) r)) 0) (Finset.sum_congr rfl fun o _ => ?_)
  rw [transpose_ix2_apply]
  rfl

variable (V : (c : Dev nD) → (b : Ref sig .tc) → Buf (Elt Ideal) ((c : Thread nD τ).loc b))

abbrev hArr (c : Dev nD) : FVec Ideal S10240x256 .bf16 := V c main_v34
abbrev w2Arr (c : Dev nD) : FVec Ideal S128x256 .f32 := V c main_arg4
abbrev b2Arr (c : Dev nD) : FVec Ideal S1x128 .f32 := V c main_v35
abbrev wa1Arr (c : Dev nD) : FVec Ideal S64x128 .f32 := V c main_arg6
abbrev ba1Arr (c : Dev nD) : FVec Ideal S1x64 .f32 := V c main_v36
abbrev wa2Arr (c : Dev nD) : FVec Ideal S1x64 .f32 := V c main_arg8
abbrev ba2Arr (c : Dev nD) : FVec Ideal S1x1 .f32 := V c main_v37

theorem blockIdx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

theorem hBlk_apply (c : Dev nD) (t : Fin cfg3.N) (p : Fin 1024) (k : Fin 256) (r : Fin 10240) (hr : r.val = t.val * 1024 + p.val) :
    (Hand.iblk3 V c 0 t : FVec Ideal S1024x256 .bf16) (ix2 p k) = (V c main_v34 : FVec Ideal S10240x256 .bf16) (ix2 r k) := by
  obtain ⟨e0, e1, -⟩ := blockIdx t
  show (V c main_v34 : FVec Ideal S10240x256 .bf16) (((cfg3.win 0).blk t).view.emb (ix2 p k)) = _
  refine congrArg _ (funext fun a => Fin.ext ?_)
  match a with
  | ⟨0, _⟩ => show win3_0.index t (0 : Fin 2) * 1024 + 1 * p.val = r.val; rw [e0, hr]; omega
  | ⟨1, _⟩ => show win3_0.index t (1 : Fin 2) * 256 + 1 * k.val = k.val; rw [e1]; omega

theorem blk3_1 (c : Dev nD) (t : Fin cfg3.N) : (Hand.iblk3 V c 1 t : FVec Ideal S128x256 .f32) = V c main_arg4 := by
  obtain ⟨-, -, e0, e1, -, -, -, -, -, -, -, -, -, -, -, -, -, -⟩ := blockIdx t
  funext y
  show (V c main_arg4 : FVec Ideal S128x256 .f32) (((cfg3.win 1).blk t).view.emb y) = _
  refine congrArg _ (funext fun a => Fin.ext ?_)
  match a with
  | ⟨0, _⟩ => show win3_1.index t (0 : Fin 2) * 128 + 1 * (y 0).val = (y 0).val; rw [e0]; omega
  | ⟨1, _⟩ => show win3_1.index t (1 : Fin 2) * 256 + 1 * (y 1).val = (y 1).val; rw [e1]; omega

theorem blk3_2 (c : Dev nD) (t : Fin cfg3.N) : (Hand.iblk3 V c 2 t : FVec Ideal S1x128 .f32) = V c main_v35 := by
  obtain ⟨-, -, -, -, e0, e1, -, -, -, -, -, -, -, -, -, -, -, -⟩ := blockIdx t
  funext y
  show (V c main_v35 : FVec Ideal S1x128 .f32) (((cfg3.win 2).blk t).view.emb y) = _
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

theorem blk3_3 (c : Dev nD) (t : Fin cfg3.N) : (Hand.iblk3 V c 3 t : FVec Ideal S64x128 .f32) = V c main_arg6 := by
  obtain ⟨-, -, -, -, -, -, e0, e1, -, -, -, -, -, -, -, -, -, -⟩ := blockIdx t
  funext y
  show (V c main_arg6 : FVec Ideal S64x128 .f32) (((cfg3.win 3).blk t).view.emb y) = _
  refine congrArg _ (funext fun a => Fin.ext ?_)
  match a with
  | ⟨0, _⟩ => show win3_3.index t (0 : Fin 2) * 64 + 1 * (y 0).val = (y 0).val; rw [e0]; omega
  | ⟨1, _⟩ => show win3_3.index t (1 : Fin 2) * 128 + 1 * (y 1).val = (y 1).val; rw [e1]; omega

theorem blk3_4 (c : Dev nD) (t : Fin cfg3.N) : (Hand.iblk3 V c 4 t : FVec Ideal S1x64 .f32) = V c main_v36 := by
  obtain ⟨-, -, -, -, -, -, -, -, e0, e1, -, -, -, -, -, -, -, -⟩ := blockIdx t
  funext y
  show (V c main_v36 : FVec Ideal S1x64 .f32) (((cfg3.win 4).blk t).view.emb y) = _
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

theorem blk3_5 (c : Dev nD) (t : Fin cfg3.N) : (Hand.iblk3 V c 5 t : FVec Ideal S1x64 .f32) = V c main_arg8 := by
  obtain ⟨-, -, -, -, -, -, -, -, -, -, e0, e1, -, -, -, -, -, -⟩ := blockIdx t
  funext y
  show (V c main_arg8 : FVec Ideal S1x64 .f32) (((cfg3.win 5).blk t).view.emb y) = _
  refine congrArg _ (funext fun a => Fin.ext ?_)
  match a with
  | ⟨0, _⟩ => show win3_5.index t (0 : Fin 2) * 1 + 1 * (y 0).val = (y 0).val; rw [e0]; omega
  | ⟨1, _⟩ => show win3_5.index t (1 : Fin 2) * 64 + 1 * (y 1).val = (y 1).val; rw [e1]; omega

theorem blk3_6 (c : Dev nD) (t : Fin cfg3.N) : (Hand.iblk3 V c 6 t : FVec Ideal S1x1 .f32) = V c main_v37 := by
  obtain ⟨-, -, -, -, -, -, -, -, -, -, -, -, e0, e1, -, -, -, -⟩ := blockIdx t
  funext y
  show (V c main_v37 : FVec Ideal S1x1 .f32) (((cfg3.win 6).blk t).view.emb y) = _
  refine congrArg _ (funext fun a => Fin.ext ?_)
  match a with
  | ⟨0, _⟩ => show win3_6.index t (0 : Fin 2) * 1 + 1 * (y 0).val = (y 0).val; rw [e0]; omega
  | ⟨1, _⟩ => show win3_6.index t (1 : Fin 2) * 1 + 1 * (y 1).val = (y 1).val; rw [e1]; omega

theorem out_entry (c : Dev nD) (t : Fin cfg3.N) (p : Fin 1024) (q : Fin 128) (r : Fin 10240) (hr : r.val = t.val * 1024 + p.val) :
    k3_pay1 (F := Ideal) (Hand.iblk3 V c 0 t) (Hand.iblk3 V c 1 t) (Hand.iblk3 V c 2 t) (ix2 p q)
      = Cert.Spec.fc2Arr (V c main_v34) (V c main_arg4) (V c main_v35) (ix2 r q) := by
  refine (pay1_apply (Hand.iblk3 V c 0 t) (Hand.iblk3 V c 1 t) (Hand.iblk3 V c 2 t) p q).trans ?_
  show _ = max ((∑ k : Fin 256, hArr V c (ix2 r k) * w2Arr V c (ix2 q k)) + b2Arr V c (ix2 (0 : Fin 1) q)) 0
  refine congrArg (fun s => max s 0) (congrArg₂ (· + ·) (Finset.sum_congr rfl fun k _ => congrArg₂ (· * ·) ?_ ?_) ?_)
  · exact hBlk_apply V c t p k r hr
  · exact congrFun (blk3_1 V c t) (ix2 q k)
  · exact congrFun (blk3_2 V c t) (ix2 (0 : Fin 1) q)

theorem outEmb (t : Fin cfg3.N) (p : Fin 1024) (q : Fin 128) (r : Fin 10240) (hr : r.val = t.val * 1024 + p.val) :
    ((cfg3.win 7).blk t).view.emb (ix2 p q) = (ix2 r q : S10240x128.Idx) := by
  obtain ⟨-, -, -, -, -, -, -, -, -, -, -, -, -, -, e0, e1, -, -⟩ := blockIdx t
  refine funext fun a => Fin.ext ?_
  match a with
  | ⟨0, _⟩ => show win3_7.index t (0 : Fin 2) * 1024 + 1 * p.val = r.val; rw [e0, hr]; omega
  | ⟨1, _⟩ => show win3_7.index t (1 : Fin 2) * 128 + 1 * q.val = q.val; rw [e1]; omega

theorem flushedOut_eq (c : Dev nD) (t : Fin cfg3.N) :
    (Hand.dat3 (F := Ideal) V c).flushed 7 t
      = ((cfg3.win 7).blk t).view.read (Elt Ideal) (Cert.Spec.fc2Arr (V c main_v34) (V c main_arg4) (V c main_v35)) := by
  show (cfg3.win 7).cut (grid3.coords t) ((Hand.dat3 (F := Ideal) V c).after 7 t) = _
  rw [Hand.after3_7]
  have hN : cfg3.N = 10 := N_3
  funext j
  obtain ⟨p, q, rfl⟩ : ∃ (p : Fin 1024) (q : Fin 128), j = ix2 p q := ⟨j 0, j 1, eq_ix2 j⟩
  have ht : t.val * 1024 + p.val < 10240 := by have := t.isLt; have := p.isLt; omega
  show k3_pay1 (F := Ideal) (Hand.iblk3 V c 0 t) (Hand.iblk3 V c 1 t) (Hand.iblk3 V c 2 t) (ix2 p q)
      = Cert.Spec.fc2Arr (V c main_v34) (V c main_arg4) (V c main_v35) (((cfg3.win 7).blk t).view.emb (ix2 p q))
  rw [outEmb t p q ⟨t.val * 1024 + p.val, ht⟩ rfl]
  exact out_entry V c t p q ⟨t.val * 1024 + p.val, ht⟩ rfl

theorem mem_blkOut (t : Fin cfg3.N) (i : S10240x128.Idx) :
    i ∈ ((cfg3.win 7).blk t).view.set ↔ ∀ a : Fin 2, win3_7.index t a * S1024x128.size a ≤ (i a).val ∧ (i a).val < win3_7.index t a * S1024x128.size a + S1024x128.size a := by
  show i ∈ ((View.whole main_v38_0).slice (win3_7.rect t)).set ↔ _
  rw [View.set_slice_whole, Rect.mem_set_unit]
  exact Iff.rfl

theorem coverOut (i : S10240x128.Idx) : ∃ t : Fin cfg3.N, (cfg3.win 7).flush t = true ∧ i ∈ ((cfg3.win 7).blk t).view.set := by
  have hN : cfg3.N = 10 := N_3
  have hi0 : (i 0).val < 10240 := (i 0).isLt
  have hi1 : (i 1).val < 128 := (i 1).isLt
  refine ⟨⟨(i 0).val / 1024, by omega⟩, flush3_7 _, ?_⟩
  obtain ⟨-, -, -, -, -, -, -, -, -, -, -, -, -, -, e0, e1, -, -⟩ := blockIdx ⟨(i 0).val / 1024, by omega⟩
  rw [mem_blkOut]
  intro a
  match a with
  | ⟨0, _⟩ =>
    show win3_7.index ⟨(i 0).val / 1024, _⟩ (0 : Fin 2) * 1024 ≤ (i 0).val ∧ (i 0).val < win3_7.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win3_7.index ⟨(i 0).val / 1024, _⟩ (1 : Fin 2) * 128 ≤ (i 1).val ∧ (i 1).val < win3_7.index ⟨(i 0).val / 1024, _⟩ (1 : Fin 2) * 128 + 128
    rw [e1]; omega

theorem arr3_out (V : (c : Dev nD) → (b : Ref sig .tc) → Buf (Elt Ideal) ((c : Thread nD τ).loc b)) (c : Dev nD) :
    (Hand.dat3 (F := Ideal) V c).arrAt 7 cfg3.N = Cert.Spec.fc2Arr (V c main_v34) (V c main_arg4) (V c main_v35) :=
  (Hand.dat3 (F := Ideal) V c).arrAt_eq_of_cover 7 _ (fun t _ => flushedOut_eq V c t) coverOut

theorem attEmb (t : Fin cfg3.N) (p : Fin 1024) (z : Fin 1) (r : Fin 10240) (hr : r.val = t.val * 1024 + p.val) :
    ((cfg3.win 8).blk t).view.emb (ix2 p z) = (ix2 r z : S10240x1.Idx) := by
  obtain ⟨-, -, -, -, -, -, -, -, -, -, -, -, -, -, -, -, e0, e1⟩ := blockIdx t
  refine funext fun a => Fin.ext ?_
  match a with
  | ⟨0, _⟩ => show win3_8.index t (0 : Fin 2) * 1024 + 1 * p.val = r.val; rw [e0, hr]; omega
  | ⟨1, _⟩ => show win3_8.index t (1 : Fin 2) * 1 + 1 * z.val = z.val; rw [e1]; omega

theorem flushedAtt_eq (c : Dev nD) (t : Fin cfg3.N) :
    (Hand.dat3 (F := Ideal) V c).flushed 8 t
      = ((cfg3.win 8).blk t).view.read (Elt Ideal)
          (Cert.Spec.attOfArr (Cert.Spec.fc2Arr (V c main_v34) (V c main_arg4) (V c main_v35)) (V c main_arg6) (V c main_v36) (V c main_arg8) (V c main_v37)) := by
  show (cfg3.win 8).cut (grid3.coords t) ((Hand.dat3 (F := Ideal) V c).after 8 t) = _
  rw [Hand.after3_8]
  have hN : cfg3.N = 10 := N_3
  funext j
  obtain ⟨p, z, rfl⟩ : ∃ (p : Fin 1024) (z : Fin 1), j = ix2 p z := ⟨j 0, j 1, eq_ix2 j⟩
  obtain rfl : z = 0 := Subsingleton.elim _ _
  have ht : t.val * 1024 + p.val < 10240 := by have := t.isLt; have := p.isLt; omega
  show k3_pay2 (F := Ideal) (Hand.iblk3 V c 0 t) (Hand.iblk3 V c 1 t) (Hand.iblk3 V c 2 t) (Hand.iblk3 V c 3 t) (Hand.iblk3 V c 4 t)
        (Hand.iblk3 V c 5 t) (Hand.iblk3 V c 6 t) (ix2 p (0 : Fin 1))
      = Cert.Spec.attOfArr (Cert.Spec.fc2Arr (V c main_v34) (V c main_arg4) (V c main_v35)) (V c main_arg6) (V c main_v36) (V c main_arg8) (V c main_v37)
          (((cfg3.win 8).blk t).view.emb (ix2 p (0 : Fin 1)))
  rw [attEmb t p 0 ⟨t.val * 1024 + p.val, ht⟩ rfl]
  refine (pay2_apply (Hand.iblk3 V c 0 t) (Hand.iblk3 V c 1 t) (Hand.iblk3 V c 2 t) (Hand.iblk3 V c 3 t) (Hand.iblk3 V c 4 t)
    (Hand.iblk3 V c 5 t) (Hand.iblk3 V c 6 t) p 0).trans ?_
  show _ = Ideal.logistic ((∑ q : Fin 64,
      max ((∑ o : Fin 128, Cert.Spec.fc2Arr (V c main_v34) (V c main_arg4) (V c main_v35) (ix2 (⟨t.val * 1024 + p.val, ht⟩ : Fin 10240) o)
          * wa1Arr V c (ix2 q o)) + ba1Arr V c (ix2 (0 : Fin 1) q)) 0 * wa2Arr V c (ix2 (0 : Fin 1) q))
    + ba2Arr V c (ix2 (0 : Fin 1) (0 : Fin 1)))
  refine congrArg Ideal.logistic (congrArg₂ (· + ·) (Finset.sum_congr rfl fun q _ => congrArg₂ (· * ·)
    (congrArg (fun s => max s 0) (congrArg₂ (· + ·) (Finset.sum_congr rfl fun o _ => congrArg₂ (· * ·) ?_ ?_) ?_)) ?_) ?_)
  · exact out_entry V c t p o ⟨t.val * 1024 + p.val, ht⟩ rfl
  · exact congrFun (blk3_3 V c t) (ix2 q o)
  · exact congrFun (blk3_4 V c t) (ix2 (0 : Fin 1) q)
  · exact congrFun (blk3_5 V c t) (ix2 (0 : Fin 1) q)
  · exact congrFun (blk3_6 V c t) (ix2 (0 : Fin 1) (0 : Fin 1))

theorem mem_blkAtt (t : Fin cfg3.N) (i : S10240x1.Idx) :
    i ∈ ((cfg3.win 8).blk t).view.set ↔ ∀ a : Fin 2, win3_8.index t a * S1024x1.size a ≤ (i a).val ∧ (i a).val < win3_8.index t a * S1024x1.size a + S1024x1.size a := by
  show i ∈ ((View.whole main_v38_1).slice (win3_8.rect t)).set ↔ _
  rw [View.set_slice_whole, Rect.mem_set_unit]
  exact Iff.rfl

theorem coverAtt (i : S10240x1.Idx) : ∃ t : Fin cfg3.N, (cfg3.win 8).flush t = true ∧ i ∈ ((cfg3.win 8).blk t).view.set := by
  have hN : cfg3.N = 10 := N_3
  have hi0 : (i 0).val < 10240 := (i 0).isLt
  have hi1 : (i 1).val < 1 := (i 1).isLt
  refine ⟨⟨(i 0).val / 1024, by omega⟩, flush3_8 _, ?_⟩
  obtain ⟨-, -, -, -, -, -, -, -, -, -, -, -, -, -, -, -, e0, e1⟩ := blockIdx ⟨(i 0).val / 1024, by omega⟩
  rw [mem_blkAtt]
  intro a
  match a with
  | ⟨0, _⟩ =>
    show win3_8.index ⟨(i 0).val / 1024, _⟩ (0 : Fin 2) * 1024 ≤ (i 0).val ∧ (i 0).val < win3_8.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win3_8.index ⟨(i 0).val / 1024, _⟩ (1 : Fin 2) * 1 ≤ (i 1).val ∧ (i 1).val < win3_8.index ⟨(i 0).val / 1024, _⟩ (1 : Fin 2) * 1 + 1
    rw [e1]; omega

theorem arr3_att (V : (c : Dev nD) → (b : Ref sig .tc) → Buf (Elt Ideal) ((c : Thread nD τ).loc b)) (c : Dev nD) :
    (Hand.dat3 (F := Ideal) V c).arrAt 8 cfg3.N
      = Cert.Spec.attOfArr (Cert.Spec.fc2Arr (V c main_v34) (V c main_arg4) (V c main_v35)) (V c main_arg6) (V c main_v36) (V c main_arg8) (V c main_v37) :=
  (Hand.dat3 (F := Ideal) V c).arrAt_eq_of_cover 8 _ (fun t _ => flushedAtt_eq V c t) coverAtt

end Cert.KernelIdeal.Val

end
-- ==== Proof.LibIndex.lean ====
import Idealize.ShloMosaic.PureOps.Ideal
import Idealize.ShloMosaic.PureOps.Ideal.Laws
import Idealize.ShloMosaic.Lib.ValueIdx

noncomputable section

open scoped BigOperators

namespace Cert.LibIndex

open Idealize.ShloMosaic Idealize.ShloMosaic.ValueIdx

theorem resultIdx?_eq_some_iff {s si u : Shape} (d : ScatterDims s si u) {w : ℕ} (j : u.Idx) (idx : IVec si w) (t : s.Idx) :
    d.resultIdx? j idx = some t ↔ ∀ a, d.start j idx a + (d.window j a : ℤ) = ((t a).val : ℤ) := by
  unfold ScatterDims.resultIdx?
  split
  next h =>
    constructor
    · intro heq a
      have ht := congrArg (fun f : s.Idx => (f a).val) (Option.some.inj heq)
      simp only at ht
      have := (h a).1
      omega
    · intro heq
      refine congrArg some (funext fun a => Fin.ext ?_)
      have := heq a
      simp only
      omega
  next h =>
    constructor
    · intro heq; exact absurd heq (by simp)
    · intro heq
      exact absurd (fun a => by have := heq a; have := (t a).isLt; constructor <;> omega) h

theorem mem_sKept {s si u : Shape} (d : ScatterDims s si u) (a : Fin s.rank) : a ∈ d.sKept ↔ a ∉ d.insertedWindowDims := by
  simp [ScatterDims.sKept, Shape.kept, List.mem_filter, List.mem_finRange]

theorem window_of_inserted {s si u : Shape} (d : ScatterDims s si u) (j : u.Idx) (a : Fin s.rank)
    (ha : a ∈ d.insertedWindowDims) : d.window j a = 0 := by
  unfold ScatterDims.window
  rw [dif_neg (fun h => (mem_sKept d a).mp h ha)]

theorem resultIdx_vec {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (idx : IVec ⟨2, ![E, 1]⟩ w) (e : Fin E) (i : Fin M) :
    d.resultIdx? (ix1 e) idx = some (ix1 i) ↔ (idx (ix2 e (0 : Fin 1))).toInt = (i.val : ℤ) := by
  obtain ⟨uwd, iwd, sd, ivd, wf⟩ := d
  dsimp only at h1 h2 h3 h4
  subst h1 h2 h3 h4
  rw [resultIdx?_eq_some_iff]

  have hs : ScatterDims.start (⟨[], [0], [0], 1, wf⟩ : ScatterDims ⟨1, ![M]⟩ ⟨2, ![E, 1]⟩ ⟨1, ![E]⟩) (ix1 e) idx 0
      = (idx (ix2 e (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hw : ScatterDims.window (⟨[], [0], [0], 1, wf⟩ : ScatterDims ⟨1, ![M]⟩ ⟨2, ![E, 1]⟩ ⟨1, ![E]⟩) (ix1 e) 0 = 0 :=
    window_of_inserted _ _ _ (List.mem_singleton.mpr rfl)
  constructor
  · intro h
    have := h 0
    rw [hs, hw, Nat.cast_zero, add_zero] at this
    exact this
  · intro h a
    match a with
    | ⟨0, _⟩ =>
      show ScatterDims.start _ (ix1 e) idx 0 + ((ScatterDims.window _ (ix1 e) 0 : ℕ) : ℤ) = (i.val : ℤ)
      rw [hs, hw, h, Nat.cast_zero, add_zero]

theorem resultIdx_rows {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c' : Fin C) (i : Fin M) (c : Fin C) :
    d.resultIdx? (ix2 e c') idx = some (ix2 i c) ↔ (idx (ix2 e (0 : Fin 1))).toInt = (i.val : ℤ) ∧ c' = c := by
  obtain ⟨uwd, iwd, sd, ivd, wf⟩ := d
  dsimp only at h1 h2 h3 h4
  subst h1 h2 h3 h4
  rw [resultIdx?_eq_some_iff]

  have hs0 : ScatterDims.start (⟨[1], [0], [0], 1, wf⟩ : ScatterDims ⟨2, ![M, C]⟩ ⟨2, ![E, 1]⟩ ⟨2, ![E, C]⟩) (ix2 e c') idx 0
      = (idx (ix2 e (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[1], [0], [0], 1, wf⟩ : ScatterDims ⟨2, ![M, C]⟩ ⟨2, ![E, 1]⟩ ⟨2, ![E, C]⟩) (ix2 e c') 0 = 0 :=
    window_of_inserted _ _ _ (List.mem_singleton.mpr rfl)

  have hs1 : ScatterDims.start (⟨[1], [0], [0], 1, wf⟩ : ScatterDims ⟨2, ![M, C]⟩ ⟨2, ![E, 1]⟩ ⟨2, ![E, C]⟩) (ix2 e c') idx 1 = 0 := by
    unfold ScatterDims.start
    rw [dif_neg (show (1 : Fin 2) ∉ ([0] : List (Fin 2)) by decide)]
  have hw1 : ScatterDims.window (⟨[1], [0], [0], 1, wf⟩ : ScatterDims ⟨2, ![M, C]⟩ ⟨2, ![E, 1]⟩ ⟨2, ![E, C]⟩) (ix2 e c') 1 = c'.val := by
    unfold ScatterDims.window
    rw [dif_pos ((mem_sKept _ _).mpr (show (1 : Fin 2) ∉ ([0] : List (Fin 2)) by decide))]
    rfl
  constructor
  · intro h
    have e0 := h 0
    have e1 := h 1
    rw [hs0, hw0, Nat.cast_zero, add_zero] at e0
    rw [hs1, hw1, zero_add] at e1
    exact ⟨e0, Fin.ext (Nat.cast_injective (R := ℤ) e1)⟩
  · rintro ⟨h, rfl⟩ a
    match a with
    | ⟨0, _⟩ =>
      show ScatterDims.start _ (ix2 e c') idx 0 + ((ScatterDims.window _ (ix2 e c') 0 : ℕ) : ℤ) = (i.val : ℤ)
      rw [hs0, hw0, h, Nat.cast_zero, add_zero]
    | ⟨1, _⟩ =>
      show ScatterDims.start _ (ix2 e c') idx 1 + ((ScatterDims.window _ (ix2 e c') 1 : ℕ) : ℤ) = (c'.val : ℤ)
      rw [hs1, hw1, zero_add]

theorem resultIdx_points {M E w : ℕ} (d : ScatterDims ⟨2, ![M, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (idx : IVec ⟨2, ![E, 2]⟩ w) (e : Fin E) (r k : Fin M) :
    d.resultIdx? (ix1 e) idx = some (ix2 r k)
      ↔ (idx (ix2 e (0 : Fin 2))).toInt = (r.val : ℤ) ∧ (idx (ix2 e (1 : Fin 2))).toInt = (k.val : ℤ) := by
  obtain ⟨uwd, iwd, sd, ivd, wf⟩ := d
  dsimp only at h1 h2 h3 h4
  subst h1 h2 h3 h4
  rw [resultIdx?_eq_some_iff]

  have hs0 : ScatterDims.start (⟨[], [0, 1], [0, 1], 1, wf⟩ : ScatterDims ⟨2, ![M, M]⟩ ⟨2, ![E, 2]⟩ ⟨1, ![E]⟩) (ix1 e) idx 0
      = (idx (ix2 e (0 : Fin 2))).toInt := by
    unfold ScatterDims.start
    rw [dif_pos (show (0 : Fin 2) ∈ ([0, 1] : List (Fin 2)) by decide)]
    congr 2
    funext b; refine Fin.ext ?_
    match b with
    | ⟨0, _⟩ => rfl
    | ⟨1, _⟩ => rfl
  have hs1 : ScatterDims.start (⟨[], [0, 1], [0, 1], 1, wf⟩ : ScatterDims ⟨2, ![M, M]⟩ ⟨2, ![E, 2]⟩ ⟨1, ![E]⟩) (ix1 e) idx 1
      = (idx (ix2 e (1 : Fin 2))).toInt := by
    unfold ScatterDims.start
    rw [dif_pos (show (1 : Fin 2) ∈ ([0, 1] : List (Fin 2)) by decide)]
    congr 2
    funext b; refine Fin.ext ?_
    match b with
    | ⟨0, _⟩ => rfl
    | ⟨1, _⟩ => rfl
  have hw0 : ScatterDims.window (⟨[], [0, 1], [0, 1], 1, wf⟩ : ScatterDims ⟨2, ![M, M]⟩ ⟨2, ![E, 2]⟩ ⟨1, ![E]⟩) (ix1 e) 0 = 0 :=
    window_of_inserted _ _ _ (show (0 : Fin 2) ∈ ([0, 1] : List (Fin 2)) by decide)
  have hw1 : ScatterDims.window (⟨[], [0, 1], [0, 1], 1, wf⟩ : ScatterDims ⟨2, ![M, M]⟩ ⟨2, ![E, 2]⟩ ⟨1, ![E]⟩) (ix1 e) 1 = 0 :=
    window_of_inserted _ _ _ (show (1 : Fin 2) ∈ ([0, 1] : List (Fin 2)) by decide)
  constructor
  · intro h
    have e0 := h 0
    have e1 := h 1
    rw [hs0, hw0, Nat.cast_zero, add_zero] at e0
    rw [hs1, hw1, Nat.cast_zero, add_zero] at e1
    exact ⟨e0, e1⟩
  · rintro ⟨h0, h1⟩ a
    match a with
    | ⟨0, _⟩ =>
      show ScatterDims.start _ (ix1 e) idx 0 + ((ScatterDims.window _ (ix1 e) 0 : ℕ) : ℤ) = (r.val : ℤ)
      rw [hs0, hw0, h0, Nat.cast_zero, add_zero]
    | ⟨1, _⟩ =>
      show ScatterDims.start _ (ix1 e) idx 1 + ((ScatterDims.window _ (ix1 e) 1 : ℕ) : ℤ) = (k.val : ℤ)
      rw [hs1, hw1, h1, Nat.cast_zero, add_zero]

theorem scatterAdd_vec_apply {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![E, 1]⟩ w) (upd : (⟨1, ![E]⟩ : Shape).Idx → EReal) (i : Fin M) :
    Ideal.hostScatterAdd d x idx upd (ix1 i)
      = x (ix1 i) + ∑ e ∈ Finset.univ.filter (fun e : Fin E => (idx (ix2 e (0 : Fin 1))).toInt = (i.val : ℤ)), upd (ix1 e) := by
  unfold Ideal.hostScatterAdd
  refine congrArg (x (ix1 i) + ·) ?_

  refine Finset.sum_nbij' (fun j => (j 0 : Fin E)) (fun e => ix1 e) ?_ ?_ ?_ ?_ ?_
  · intro j hj
    obtain ⟨a, rfl⟩ : ∃ a : Fin E, j = ix1 a := ⟨j 0, eq_ix1 j⟩
    show a ∈ _
    exact Finset.mem_filter.mpr ⟨Finset.mem_univ _, (resultIdx_vec d h1 h2 h3 h4 idx a i).mp (Finset.mem_filter.mp hj).2⟩
  · intro e he
    exact Finset.mem_filter.mpr ⟨Finset.mem_univ _, (resultIdx_vec d h1 h2 h3 h4 idx e i).mpr (Finset.mem_filter.mp he).2⟩
  · intro j _
    obtain ⟨a, rfl⟩ : ∃ a : Fin E, j = ix1 a := ⟨j 0, eq_ix1 j⟩
    rfl
  · intro e _; rfl
  · intro j _
    obtain ⟨a, rfl⟩ : ∃ a : Fin E, j = ix1 a := ⟨j 0, eq_ix1 j⟩
    rfl

theorem scatterAdd_rows_apply {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![M, C]⟩ : Shape).Idx → EReal) (idx : IVec ⟨2, ![E, 1]⟩ w) (upd : (⟨2, ![E, C]⟩ : Shape).Idx → EReal)
    (i : Fin M) (c : Fin C) :
    Ideal.hostScatterAdd d x idx upd (ix2 i c)
      = x (ix2 i c) + ∑ e ∈ Finset.univ.filter (fun e : Fin E => (idx (ix2 e (0 : Fin 1))).toInt = (i.val : ℤ)), upd (ix2 e c) := by
  unfold Ideal.hostScatterAdd
  refine congrArg (x (ix2 i c) + ·) ?_

  refine Finset.sum_nbij' (fun j => (j 0 : Fin E)) (fun e => ix2 e c) ?_ ?_ ?_ ?_ ?_
  · intro j hj
    obtain ⟨a, b, rfl⟩ : ∃ (a : Fin E) (b : Fin C), j = ix2 a b := ⟨j 0, j 1, eq_ix2 j⟩
    show a ∈ _
    exact Finset.mem_filter.mpr
      ⟨Finset.mem_univ _, ((resultIdx_rows d h1 h2 h3 h4 idx a b i c).mp (Finset.mem_filter.mp hj).2).1⟩
  · intro e he
    exact Finset.mem_filter.mpr
      ⟨Finset.mem_univ _, (resultIdx_rows d h1 h2 h3 h4 idx e c i c).mpr ⟨(Finset.mem_filter.mp he).2, rfl⟩⟩
  · intro j hj
    obtain ⟨a, b, rfl⟩ : ∃ (a : Fin E) (b : Fin C), j = ix2 a b := ⟨j 0, j 1, eq_ix2 j⟩
    obtain rfl : b = c := ((resultIdx_rows d h1 h2 h3 h4 idx a b i c).mp (Finset.mem_filter.mp hj).2).2
    rfl
  · intro e _; rfl
  · intro j hj
    obtain ⟨a, b, rfl⟩ : ∃ (a : Fin E) (b : Fin C), j = ix2 a b := ⟨j 0, j 1, eq_ix2 j⟩
    obtain rfl : b = c := ((resultIdx_rows d h1 h2 h3 h4 idx a b i c).mp (Finset.mem_filter.mp hj).2).2
    rfl

theorem gather_rows_apply {α : Type} {M C E w : ℕ} (d : GatherDims ⟨2, ![M, C]⟩ ⟨2, ![E, 1]⟩ ⟨2, ![E, C]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, C])
    (x : (⟨2, ![M, C]⟩ : Shape).Idx → α) (idx : IVec ⟨2, ![E, 1]⟩ w) (e : Fin E) (c : Fin C) (i : Fin M)
    (hi : (idx (ix2 e (0 : Fin 1))).toInt = (i.val : ℤ)) :
    Host.gather d x idx (ix2 e c) = x (ix2 i c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>

    show GatherDims.start _ (ix2 e c) idx 0 + GatherDims.batchCoord _ (ix2 e c) 0 + GatherDims.offCoord _ (ix2 e c) 0 = i.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![M, C]⟩ ⟨2, ![E, 1]⟩ ⟨2, ![E, C]⟩)
        (ix2 e c) ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi, hi, Int.toNat_natCast]
    show min i.val (M - 1) = i.val
    exact min_eq_left (by have := i.isLt; omega)
  | ⟨1, _⟩ =>

    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

theorem foldl_addi_one {s si u : Shape} (d : ScatterDims s si u) {w v : ℕ} (idx : IVec si w) (upd : u.Idx → BitVec v)
    (hupd : ∀ j, upd j = 1) (L : List (Fin u.numel)) (r0 : s.Idx → BitVec v) (t : s.Idx) :
    L.foldl (fun r n =>
        match d.resultIdx? (u.rowMajor.symm n) idx with
        | some i => fun i' => if i' = i then IntOp.addi (r i) (upd (u.rowMajor.symm n)) else r i'
        | none => r) r0 t
      = r0 t + BitVec.ofNat v (L.countP (fun n => d.resultIdx? (u.rowMajor.symm n) idx = some t)) := by
  induction L generalizing r0 with
  | nil => simp
  | cons n L ih =>
    rw [List.foldl_cons, ih, List.countP_cons]
    cases hres : d.resultIdx? (u.rowMajor.symm n) idx with
    | none => simp
    | some i =>
      by_cases hi : t = i
      · subst hi
        simp [IntOp.addi, hupd, BitVec.ofNat_add]
        ac_rfl
      · have hi' : ¬ (i = t) := fun h => hi h.symm
        simp [hi, hi']

theorem scatter_points_count {M E : ℕ} (hE : E < 2 ^ 31) (d : ScatterDims ⟨2, ![M, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (idx : IVec ⟨2, ![E, 2]⟩ 32) (r k : Fin M) :
    (Host.scatter d IntOp.addi (fun _ => (0 : BitVec 32)) idx (fun _ => (1 : BitVec 32)) (ix2 r k)).toInt
      = ((Finset.univ.filter (fun e : Fin E =>
          (idx (ix2 e (0 : Fin 2))).toInt = (r.val : ℤ) ∧ (idx (ix2 e (1 : Fin 2))).toInt = (k.val : ℤ))).card : ℤ) := by
  unfold Host.scatter
  refine (congrArg BitVec.toInt (foldl_addi_one d idx (fun _ => (1 : BitVec 32)) (fun _ => rfl) _ (fun _ => (0 : BitVec 32)) (ix2 r k))).trans ?_
  have h0 : ∀ y : BitVec 32, (0 : BitVec 32) + y = y := fun y => BitVec.zero_add y
  rw [h0]

  have hcount : (List.finRange (⟨1, ![E]⟩ : Shape).numel).countP
        (fun n => d.resultIdx? ((⟨1, ![E]⟩ : Shape).rowMajor.symm n) idx = some (ix2 r k))
      = (Finset.univ.filter (fun e : Fin E =>
          (idx (ix2 e (0 : Fin 2))).toInt = (r.val : ℤ) ∧ (idx (ix2 e (1 : Fin 2))).toInt = (k.val : ℤ))).card := by
    rw [← List.Nodup.card_eq_countP (List.nodup_finRange _), List.toFinset_finRange]
    refine Finset.card_nbij' (fun n => (((⟨1, ![E]⟩ : Shape).rowMajor.symm n) 0 : Fin E))
      (fun e => (⟨1, ![E]⟩ : Shape).rowMajor (ix1 e)) ?_ ?_ ?_ ?_
    · intro n hn
      obtain ⟨a, ha⟩ : ∃ a : Fin E, (⟨1, ![E]⟩ : Shape).rowMajor.symm n = ix1 a := ⟨_, eq_ix1 _⟩
      have hn' := (Finset.mem_filter.mp hn).2
      rw [ha] at hn'
      show (((⟨1, ![E]⟩ : Shape).rowMajor.symm n) 0 : Fin E) ∈ _
      rw [ha]
      exact Finset.mem_filter.mpr ⟨Finset.mem_univ _, (resultIdx_points d h1 h2 h3 h4 idx a r k).mp hn'⟩
    · intro e he
      refine Finset.mem_filter.mpr ⟨Finset.mem_univ _, ?_⟩
      show d.resultIdx? ((⟨1, ![E]⟩ : Shape).rowMajor.symm ((⟨1, ![E]⟩ : Shape).rowMajor (ix1 e))) idx = _
      rw [Equiv.symm_apply_apply]
      exact (resultIdx_points d h1 h2 h3 h4 idx e r k).mpr (Finset.mem_filter.mp he).2
    · intro n _
      obtain ⟨a, ha⟩ : ∃ a : Fin E, (⟨1, ![E]⟩ : Shape).rowMajor.symm n = ix1 a := ⟨_, eq_ix1 _⟩
      show (⟨1, ![E]⟩ : Shape).rowMajor (ix1 (((⟨1, ![E]⟩ : Shape).rowMajor.symm n) 0 : Fin E)) = n
      rw [ha]
      show (⟨1, ![E]⟩ : Shape).rowMajor (ix1 a) = n
      rw [← ha, Equiv.apply_symm_apply]
    · intro e _
      show (((⟨1, ![E]⟩ : Shape).rowMajor.symm ((⟨1, ![E]⟩ : Shape).rowMajor (ix1 e))) 0 : Fin E) = e
      rw [Equiv.symm_apply_apply]
      rfl
  rw [hcount]

  have hle : (Finset.univ.filter (fun e : Fin E =>
      (idx (ix2 e (0 : Fin 2))).toInt = (r.val : ℤ) ∧ (idx (ix2 e (1 : Fin 2))).toInt = (k.val : ℤ))).card ≤ E :=
    (Finset.card_filter_le _ _).trans (by simp)
  generalize (Finset.univ.filter (fun e : Fin E =>
      (idx (ix2 e (0 : Fin 2))).toInt = (r.val : ℤ) ∧ (idx (ix2 e (1 : Fin 2))).toInt = (k.val : ℤ))).card = c at hle ⊢
  have hc : (BitVec.ofNat 32 c).toNat = c := by
    rw [BitVec.toNat_ofNat]; exact Nat.mod_eq_of_lt (by omega)
  rw [BitVec.toInt_eq_toNat_of_lt (by rw [hc]; omega), hc]

end Cert.LibIndex

end
-- ==== Proof.KI.HostVal.lean ====
import proofs.«424795_j47278999994618_2_alg».proof.Proof.Gen.KernelIdeal.Regions
import proofs.«424795_j47278999994618_2_alg».proof.Proof.Spec
import proofs.«424795_j47278999994618_2_alg».proof.Proof.LibIndex
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.Affine
import Idealize.ShloMosaic.PureOps.Ideal.Laws

noncomputable section

open scoped BigOperators

namespace Cert.KernelIdeal.Val

open Cert.KernelIdeal Cert.KernelIdeal.Gen Idealize.ShloMosaic Idealize.ShloMosaic.ValueIdx Idealize.ShloMosaic.TcCoe

abbrev colW (T : IVec S320000 32) : IVec S320000x1 32 := broadcastInDim S320000x1 ![0] bcast_S320000_S320000x1_0 T

abbrev wrapW (T : IVec S320000 32) : IVec S320000 32 :=
  select (cmpi .slt T (broadcastInDim S320000 ![] bcast_S_S320000 (constantI S_ 32 0#32)))
    (addi T (broadcastInDim S320000 ![] bcast_S_S320000 (constantI S_ 32 10240#32))) T

abbrev pairsC (CA CB : IVec S320000x1 32) : IVec S320000x2 32 :=
  concatenate S320000x2 1 [⟨S320000x1, CA⟩, ⟨S320000x1, CB⟩] concatenates_S320000x1_S320000x1_S320000x2_d1

abbrev pairsW (A B : IVec S320000 32) : IVec S320000x2 32 := pairsC (colW A) (colW B)

abbrev invW (T : IVec S320000 32) : FVec Ideal S10240x1 .f32 :=
  shapeCast S10240x1
    (Host.divf (F := Ideal) (broadcastInDim S10240 ![] bcast_S_S10240 (constant (F := Ideal) S_ .f32 0x3F800000#32))
      (addf
        (Host.scatterAdd (F := Ideal) scatter_S10240_S320000x1_S320000_n_0_0_1
          (broadcastInDim S10240 ![] bcast_S_S10240 (constant (F := Ideal) S_ .f32 0x00000000#32))
          (colW T)
          (broadcastInDim S320000 ![] bcast_S_S320000 (constant (F := Ideal) S_ .f32 0x3F800000#32)))
        (broadcastInDim S10240 ![] bcast_S_S10240 (constant (F := Ideal) S_ .f32 0x3F800000#32))))
    shapeCasts_S10240_S10240x1

abbrev adjW (I : IVec S320000x2 32) : FVec Ideal S10240x10240 .bf16 :=
  sitofp (F := Ideal) .bf16
    (Host.scatter scatter_S10240x10240_S320000x2_S320000_n_01_01_1 IntOp.addi
      (broadcastInDim S10240x10240 ![] bcast_S_S10240x10240 (constantI S_ 32 0#32)) I
      (broadcastInDim S320000 ![] bcast_S_S320000 (constantI S_ 32 1#32)))

theorem row0_apply (X : IVec S2x320000 32) (e : Fin 320000) :
    shapeCast S320000 (extractStridedSlice S1x320000 ![0, 0] X slices_S2x320000_S1x320000_0_0) shapeCasts_S1x320000_S320000 (ix1 e)
      = X (ix2 (0 : Fin 2) e) :=
  (shapeCast_1a_a_apply _ _ e).trans (slice2_axis0_apply 0 X _ (0 : Fin 1) e (0 : Fin 2) rfl)

theorem row1_apply (X : IVec S2x320000 32) (e : Fin 320000) :
    shapeCast S320000 (extractStridedSlice S1x320000 ![1, 0] X slices_S2x320000_S1x320000_1_0) shapeCasts_S1x320000_S320000 (ix1 e)
      = X (ix2 (1 : Fin 2) e) :=
  (shapeCast_1a_a_apply _ _ e).trans (slice2_axis0_apply 1 X _ (0 : Fin 1) e (1 : Fin 2) rfl)

theorem col_apply (T : IVec S320000 32) (e : Fin 320000) : colW T (ix2 e (0 : Fin 1)) = T (ix1 e) :=
  broadcastInDim_apply _ _ T _ (ix1 e) fun a => by
    match a with
    | ⟨0, _⟩ => exact (if_neg (show ¬(320000 : ℕ) = 1 by decide)).symm

theorem wrap_apply (T : IVec S320000 32) (e : Fin 320000) (h : 0 ≤ (T (ix1 e)).toInt) : wrapW T (ix1 e) = T (ix1 e) := by
  have hc : IntOp.cmpi .slt (T (ix1 e)) 0#32 = 0#1 := eq_zero_of_ne_one fun h1 => by
    have h2 := IntOp.cmpi_slt.mp h1
    have h0 : (0#32 : BitVec 32).toInt = 0 := rfl
    omega
  show Scalar.select (IntOp.cmpi .slt (T (ix1 e)) 0#32) _ (T (ix1 e)) = _
  rw [hc, select_zero]

theorem pairs_apply0 (A B : IVec S320000 32) (e : Fin 320000) : pairsW A B (ix2 e (0 : Fin 2)) = A (ix1 e) :=
  (concatenate_pair_apply_left (t := S320000x2) (s₁ := S320000x1) (s₂ := S320000x1) (1 : Fin 2) _ _
    concatenates_S320000x1_S320000x1_S320000x2_d1 (ix2 e (0 : Fin 2)) rfl (ix2 e (0 : Fin 1) : S320000x1.Idx) fun b => by
      match b with | ⟨0, _⟩ => rfl | ⟨1, _⟩ => rfl).trans (col_apply A e)

theorem pairs_apply1 (A B : IVec S320000 32) (e : Fin 320000) : pairsW A B (ix2 e (1 : Fin 2)) = B (ix1 e) :=
  (concatenate_pair_apply_right (t := S320000x2) (s₁ := S320000x1) (s₂ := S320000x1) (1 : Fin 2) _ _
    concatenates_S320000x1_S320000x1_S320000x2_d1 (ix2 e (1 : Fin 2)) rfl rfl (ix2 e (0 : Fin 1) : S320000x1.Idx) (fun b hb => by
      match b with | ⟨0, _⟩ => rfl | ⟨1, _⟩ => exact absurd rfl hb) rfl).trans (col_apply B e)

theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem splat_apply {T : Shape} (h : S_.BroadcastsInDim T (![] : Fin 0 → Fin T.rank)) (w : BitVec 32) (j : T.Idx) :
    broadcastInDim T ![] h (constant (F := Ideal) S_ .f32 w) j = Ideal.ofBits .f32 w := rfl

theorem hostScatterAdd_eq {s si u : Shape} {φ : FTy} {w : ℕ} (d : ScatterDims s si u) (x : FVec Ideal s φ) (idx : IVec si w)
    (upd : FVec Ideal u φ) : Host.scatterAdd d x idx upd = Ideal.hostScatterAdd d x idx upd := rfl

theorem inv_apply (T : IVec S320000 32) (r : Fin 10240) :
    invW T (ix2 r (0 : Fin 1))
      = Ideal.div 1 ((∑ _e ∈ Finset.univ.filter (fun e : Fin 320000 => (T (ix1 e)).toInt = (r.val : ℤ)), (1 : EReal)) + 1) := by
  refine (shapeCast_a_a1_apply _ _ r (0 : Fin 1)).trans ?_
  rw [hostDivf_apply, addf_apply, hostScatterAdd_eq, Cert.LibIndex.scatterAdd_vec_apply _ rfl rfl rfl rfl,
    splat_apply, splat_apply, Cert.Spec.ofBits_one_f32, Ideal.ofBits_zero_f32, zero_add]
  refine congrArg (fun d => Ideal.div 1 (d + 1)) (Finset.sum_congr (Finset.filter_congr fun e _ => ?_) fun e _ => ?_)
  · rw [col_apply]
  · exact (splat_apply _ _ _).trans Cert.Spec.ofBits_one_f32

theorem adj_apply (I : IVec S320000x2 32) (r k : Fin 10240) :
    adjW I (ix2 r k)
      = (((Finset.univ.filter (fun e : Fin 320000 =>
          (I (ix2 e (0 : Fin 2))).toInt = (r.val : ℤ) ∧ (I (ix2 e (1 : Fin 2))).toInt = (k.val : ℤ))).card : ℝ) : EReal) := by
  have hc := Cert.LibIndex.scatter_points_count (M := 10240) (E := 320000) (by norm_num)
    scatter_S10240x10240_S320000x2_S320000_n_01_01_1 rfl rfl rfl rfl I r k
  show ((((Host.scatter scatter_S10240x10240_S320000x2_S320000_n_01_01_1 IntOp.addi (fun _ => (0 : BitVec 32)) I
    (fun _ => (1 : BitVec 32)) (ix2 r k)).toInt : ℤ) : ℝ) : EReal) = _
  rw [hc, Int.cast_natCast]

variable (m : (ℓ : Loc nD τ sig) → Buf (Elt Ideal) ℓ) (outs : Gen.Outs (F := Ideal)) (c : Dev nD)

abbrev srcW : IVec S320000 32 :=
  shapeCast S320000 (extractStridedSlice S1x320000 ![0, 0] (m ((c : Thread nD τ).loc main_arg1) : S2x320000.Idx → BitVec 32)
    slices_S2x320000_S1x320000_0_0) shapeCasts_S1x320000_S320000
abbrev tgtW : IVec S320000 32 :=
  shapeCast S320000 (extractStridedSlice S1x320000 ![1, 0] (m ((c : Thread nD τ).loc main_arg1) : S2x320000.Idx → BitVec 32)
    slices_S2x320000_S1x320000_1_0) shapeCasts_S1x320000_S320000

section Edges
variable {s t : Fin 320000 → Fin 10000}

theorem src_toInt (hs : ∀ e : Fin 320000, (m ((c : Thread nD τ).loc main_arg1) (ix2 (0 : Fin 2) e)).toInt = ((s e).val : ℤ))
    (e : Fin 320000) : (srcW m c (ix1 e)).toInt = ((s e).val : ℤ) :=
  (congrArg BitVec.toInt (row0_apply _ e)).trans (hs e)
theorem wsrc_toInt (hs : ∀ e : Fin 320000, (m ((c : Thread nD τ).loc main_arg1) (ix2 (0 : Fin 2) e)).toInt = ((s e).val : ℤ))
    (e : Fin 320000) : (wrapW (srcW m c) (ix1 e)).toInt = ((s e).val : ℤ) :=
  (congrArg BitVec.toInt (wrap_apply _ e (by rw [src_toInt m c hs e]; exact Int.natCast_nonneg _))).trans (src_toInt m c hs e)

theorem tgt_toInt (ht : ∀ e : Fin 320000, (m ((c : Thread nD τ).loc main_arg1) (ix2 (1 : Fin 2) e)).toInt = ((t e).val : ℤ))
    (e : Fin 320000) : (tgtW m c (ix1 e)).toInt = ((t e).val : ℤ) :=
  (congrArg BitVec.toInt (row1_apply _ e)).trans (ht e)
theorem wtgt_toInt (ht : ∀ e : Fin 320000, (m ((c : Thread nD τ).loc main_arg1) (ix2 (1 : Fin 2) e)).toInt = ((t e).val : ℤ))
    (e : Fin 320000) : (wrapW (tgtW m c) (ix1 e)).toInt = ((t e).val : ℤ) :=
  (congrArg BitVec.toInt (wrap_apply _ e (by rw [tgt_toInt m c ht e]; exact Int.natCast_nonneg _))).trans (tgt_toInt m c ht e)

theorem v12_apply (hs : ∀ e : Fin 320000, (m ((c : Thread nD τ).loc main_arg1) (ix2 (0 : Fin 2) e)).toInt = ((s e).val : ℤ))
    (ht : ∀ e : Fin 320000, (m ((c : Thread nD τ).loc main_arg1) (ix2 (1 : Fin 2) e)).toInt = ((t e).val : ℤ))
    (r : Fin 10240) :
    Gen.V3 m c main_v12 (ix2 r (0 : Fin 1))
      = Ideal.div 1 ((∑ _e ∈ Finset.univ.filter (fun e : Fin 320000 => (t e).val = r.val), (1 : EReal)) + 1) := by
  have e : (Gen.V1 m c main_v12 : S10240x1.Idx → EReal) = invW (tgtW m c) := by
    show StableHlo.after hostOps0 _ (Proc.devRef .tc main_v12) = _
    after_results_simp
    rfl
  rw [V3_of m c main_v12 (by decide), V2_of m c main_v12 (by decide), e, inv_apply]
  refine congrArg (fun d => Ideal.div 1 (d + 1)) (Finset.sum_congr (Finset.filter_congr fun e _ => ?_) fun _ _ => rfl)
  rw [tgt_toInt m c ht e, Nat.cast_inj]

theorem v29_apply (hs : ∀ e : Fin 320000, (m ((c : Thread nD τ).loc main_arg1) (ix2 (0 : Fin 2) e)).toInt = ((s e).val : ℤ))
    (ht : ∀ e : Fin 320000, (m ((c : Thread nD τ).loc main_arg1) (ix2 (1 : Fin 2) e)).toInt = ((t e).val : ℤ))
    (r k : Fin 10240) :
    Gen.V3 m c main_v29 (ix2 r k)
      = (((Finset.univ.filter (fun e : Fin 320000 => (t e).val = r.val ∧ (s e).val = k.val)).card : ℝ) : EReal) := by
  have e : (Gen.V1 m c main_v29 : S10240x10240.Idx → EReal) = adjW (pairsW (wrapW (tgtW m c)) (wrapW (srcW m c))) := by
    show StableHlo.after hostOps0 _ (Proc.devRef .tc main_v29) = _
    after_results_simp
    refine congrArg adjW (congrArg₂ pairsC ?_ ?_)
    · after_results_simp
      rfl
    · after_results_simp
      rfl
  rw [V3_of m c main_v29 (by decide), V2_of m c main_v29 (by decide), e, adj_apply]
  refine congrArg (fun n : ℕ => ((n : ℝ) : EReal)) (congrArg Finset.card (Finset.filter_congr fun e _ => ?_))
  rw [pairs_apply0, pairs_apply1, wtgt_toInt m c ht e, wsrc_toInt m c hs e, Nat.cast_inj, Nat.cast_inj]

end Edges

theorem v30_apply (r : Fin 10240) (k : Fin 384) :
    Gen.V3 m c main_v30 (ix2 r k)
      = if h : r.val < 10000 then m ((c : Thread nD τ).loc main_arg0) (ix2 (⟨r.val, h⟩ : Fin 10000) k) else (0 : EReal) := by
  have e : (Gen.V2 m c main_v30 : S10240x384.Idx → EReal)
      = pad S10240x384 ![0, 0] ![240, 0] ![0, 0] (m ((c : Thread nD τ).loc main_arg0) : S10000x384.Idx → EReal)
          (sitofp (F := Ideal) .f32 (constantI S_ 32 0#32)) pads_S10000x384_S10240x384_02400_000 h_S_ := by
    show StableHlo.after hostOps0_1 _ (Proc.devRef .tc main_v30) = _
    after_results
    simp only [StableHlo.TRef.ofBuf, StableHlo.TRef.toBuf, cast_eq]
  rw [V3_of m c main_v30 (by decide), e]
  by_cases h : r.val < 10000
  · rw [dif_pos h]
    exact pad_apply_of_inside _ _ _ _ _ _ _ (ix2 r k) (ix2 (⟨r.val, h⟩ : Fin 10000) k) fun a => by
      match a with
      | ⟨0, _⟩ => show r.val = 0 + r.val * (0 + 1); omega
      | ⟨1, _⟩ => show k.val = 0 + k.val * (0 + 1); omega
  · rw [dif_neg h]
    refine (pad_apply_of_not_inside _ _ _ _ _ _ _ (ix2 r k) (0 : Fin 2) fun hh => h ?_).trans (sitofp_zero (φ := .f32))
    have h3 : (r.val - 0) / (0 + 1) < 10000 := hh.2.2
    simpa using h3

theorem v31_apply (q : Fin 256) :
    Gen.V3 m c main_v31 (ix2 (0 : Fin 1) q) = m ((c : Thread nD τ).loc main_arg3) (ix1 q) := by
  have e : (Gen.V3 m c main_v31 : S1x256.Idx → EReal)
      = shapeCast S1x256 (Gen.V2 m c main_arg3 : S256.Idx → EReal) shapeCasts_S256_S1x256 := by
    show StableHlo.after hostOps0_2 _ (Proc.devRef .tc main_v31) = _
    after_results
    rfl
  rw [e, (V2_of m c main_arg3 (by decide)).trans (V1_of m c main_arg3 (by decide))]
  exact shapeCast_a_1a_apply _ _ (0 : Fin 1) q

theorem v3_arg2 : Gen.V3 m c main_arg2 = m ((c : Thread nD τ).loc main_arg2) :=
  (V3_of m c main_arg2 (by decide)).trans <| (V2_of m c main_arg2 (by decide)).trans <| (V1_of m c main_arg2 (by decide)).trans rfl

theorem v4_v32 : Gen.V4 m outs c main_v32 = outs 4 main_v32 c := Function.update_self ..
theorem v5_v33 : Gen.V5 m outs c main_v33 = outs 5 main_v33 c := Function.update_self ..
theorem v4_v29 : Gen.V4 m outs c main_v29 = Gen.V3 m c main_v29 := V4_of m outs c main_v29 (by decide)
theorem v4_v12 : Gen.V4 m outs c main_v12 = Gen.V3 m c main_v12 := V4_of m outs c main_v12 (by decide)
theorem v5_v29 : Gen.V5 m outs c main_v29 = Gen.V3 m c main_v29 :=
  (V5_of m outs c main_v29 (by decide)).trans (V4_of m outs c main_v29 (by decide))
theorem v5_v12 : Gen.V5 m outs c main_v12 = Gen.V3 m c main_v12 :=
  (V5_of m outs c main_v12 (by decide)).trans (V4_of m outs c main_v12 (by decide))
theorem v7_v34 : Gen.V7 m outs c main_v34 = outs 6 main_v34 c :=
  (V7_of m outs c main_v34 (by decide)).trans (Function.update_self ..)

theorem v6_arg (r : Ref sig .tc) (h0 : r ∉ hostOps0_W) (h1 : r ∉ hostOps0_1_W) (h2 : r ∉ hostOps0_2_W)
    (h4 : r ∉ ([main_v32] : List (Ref sig .tc))) (h5 : r ∉ ([main_v33] : List (Ref sig .tc)))
    (h6 : r ∉ ([main_v34] : List (Ref sig .tc))) : Gen.V6 m outs c r = m ((c : Thread nD τ).loc r) :=
  (V6_of m outs c r h6).trans <| (V5_of m outs c r h5).trans <| (V4_of m outs c r h4).trans <|
    (V3_of m c r h2).trans <| (V2_of m c r h1).trans <| (V1_of m c r h0).trans rfl

theorem v7_arg4 : Gen.V7 m outs c main_arg4 = m ((c : Thread nD τ).loc main_arg4) :=
  (V7_of m outs c main_arg4 (by decide)).trans
    (v6_arg m outs c main_arg4 (by decide) (by decide) (by decide) (by decide) (by decide) (by decide))
theorem v7_arg6 : Gen.V7 m outs c main_arg6 = m ((c : Thread nD τ).loc main_arg6) :=
  (V7_of m outs c main_arg6 (by decide)).trans
    (v6_arg m outs c main_arg6 (by decide) (by decide) (by decide) (by decide) (by decide) (by decide))
theorem v7_arg8 : Gen.V7 m outs c main_arg8 = m ((c : Thread nD τ).loc main_arg8) :=
  (V7_of m outs c main_arg8 (by decide)).trans
    (v6_arg m outs c main_arg8 (by decide) (by decide) (by decide) (by decide) (by decide) (by decide))

theorem v35_apply (o : Fin 128) :
    Gen.V7 m outs c main_v35 (ix2 (0 : Fin 1) o) = m ((c : Thread nD τ).loc main_arg5) (ix1 o) := by
  have e : (Gen.V7 m outs c main_v35 : S1x128.Idx → EReal)
      = shapeCast S1x128 (Gen.V6 m outs c main_arg5 : S128.Idx → EReal) shapeCasts_S128_S1x128 := by
    show StableHlo.after hostOps3 _ (Proc.devRef .tc main_v35) = _
    after_results
    rfl
  rw [e, v6_arg m outs c main_arg5 (by decide) (by decide) (by decide) (by decide) (by decide) (by decide)]
  exact shapeCast_a_1a_apply _ _ (0 : Fin 1) o

theorem v36_apply (q : Fin 64) :
    Gen.V7 m outs c main_v36 (ix2 (0 : Fin 1) q) = m ((c : Thread nD τ).loc main_arg7) (ix1 q) := by
  have e : (Gen.V7 m outs c main_v36 : S1x64.Idx → EReal)
      = shapeCast S1x64 (Gen.V6 m outs c main_arg7 : S64.Idx → EReal) shapeCasts_S64_S1x64 := by
    show StableHlo.after hostOps3 _ (Proc.devRef .tc main_v36) = _
    after_results
    rfl
  rw [e, v6_arg m outs c main_arg7 (by decide) (by decide) (by decide) (by decide) (by decide) (by decide)]
  exact shapeCast_a_1a_apply _ _ (0 : Fin 1) q

theorem v37_apply :
    Gen.V7 m outs c main_v37 (ix2 (0 : Fin 1) (0 : Fin 1)) = m ((c : Thread nD τ).loc main_arg9) (ix1 (0 : Fin 1)) := by
  have e : (Gen.V7 m outs c main_v37 : S1x1.Idx → EReal)
      = shapeCast S1x1 (Gen.V6 m outs c main_arg9 : S1.Idx → EReal) shapeCasts_S1_S1x1 := by
    show StableHlo.after hostOps3 _ (Proc.devRef .tc main_v37) = _
    after_results
    rfl
  rw [e, v6_arg m outs c main_arg9 (by decide) (by decide) (by decide) (by decide) (by decide) (by decide)]
  exact shapeCast_a_1a_apply _ _ (0 : Fin 1) (0 : Fin 1)

theorem v8_v38_0 : Gen.V8 m outs c main_v38_0 = outs 8 main_v38_0 c := by
  show Function.update (Function.update (V7 m outs c) main_v38_0 (outs 8 main_v38_0 c)) main_v38_1 (outs 8 main_v38_1 c) main_v38_0 = _
  rw [Function.update_of_ne (StableHlo.devRef_ne_of_ne (by decide) : (Proc.devRef .tc main_v38_0 : DevRef τ sig) ≠ Proc.devRef .tc main_v38_1),
    Function.update_self]
theorem v8_v38_1 : Gen.V8 m outs c main_v38_1 = outs 8 main_v38_1 c := Function.update_self ..

theorem v39_apply (i : Fin 10000) (o : Fin 128) :
    Gen.V9 m outs c main_v39 (ix2 i o) = outs 8 main_v38_0 c (ix2 (⟨i.val, by omega⟩ : Fin 10240) o) := by
  have e : (Gen.V9 m outs c main_v39 : S10000x128.Idx → EReal)
      = extractStridedSlice S10000x128 ![0, 0] (Gen.V8 m outs c main_v38_0 : S10240x128.Idx → EReal) slices_S10240x128_S10000x128_0_0 := by
    show StableHlo.after hostOps4 _ (Proc.devRef .tc main_v39) = _
    after_results
  rw [e, v8_v38_0]
  exact slice2_axis0_apply 0 _ _ i o _ (Nat.zero_add _).symm

theorem v40_apply (i : Fin 10000) :
    Gen.V9 m outs c main_v40 (ix2 i (0 : Fin 1)) = outs 8 main_v38_1 c (ix2 (⟨i.val, by omega⟩ : Fin 10240) (0 : Fin 1)) := by
  have e : (Gen.V9 m outs c main_v40 : S10000x1.Idx → EReal)
      = extractStridedSlice S10000x1 ![0, 0] (Gen.V8 m outs c main_v38_1 : S10240x1.Idx → EReal) slices_S10240x1_S10000x1_0_0 := by
    show StableHlo.after hostOps4 _ (Proc.devRef .tc main_v40) = _
    after_results
  rw [e, v8_v38_1]
  exact slice2_axis0_apply 0 _ _ i (0 : Fin 1) _ (Nat.zero_add _).symm

end Cert.KernelIdeal.Val

end
-- ==== Proof.LibGraph.lean ====
import Mathlib.Data.EReal.Operations
import Mathlib.Data.Fintype.BigOperators
import Mathlib.Algebra.BigOperators.Group.Finset.Basic
import Idealize.ShloMosaic.PureOps.Ideal

open scoped BigOperators

namespace Cert.LibGraph

theorem natCast_mul_eq_nsmul (n : ℕ) (a : EReal) : (((n : ℝ) : EReal)) * a = n • a := by
  induction n with
  | zero => simp
  | succ n ih =>
    have hn : (0 : EReal) ≤ ((n : ℝ) : EReal) := by exact_mod_cast (Nat.cast_nonneg n : (0 : ℝ) ≤ n)
    have h1 : (0 : EReal) ≤ ((1 : ℝ) : EReal) := by simp
    rw [Nat.cast_succ, EReal.coe_add, EReal.right_distrib_of_nonneg hn h1, ih, EReal.coe_one, one_mul, succ_nsmul]

theorem sum_count_mul {E M : ℕ} (s : Fin E → Fin M) (P : Fin E → Prop) [DecidablePred P] (g : Fin M → EReal) :
    ∑ k : Fin M, (((Finset.univ.filter (fun e : Fin E => P e ∧ s e = k)).card : ℝ) : EReal) * g k
      = ∑ e ∈ Finset.univ.filter P, g (s e) := by
  rw [← Finset.sum_fiberwise (Finset.univ.filter P) s (fun e => g (s e))]
  refine Finset.sum_congr rfl (fun k _ => ?_)
  rw [natCast_mul_eq_nsmul, ← Finset.sum_const, Finset.filter_filter]
  refine Finset.sum_congr rfl (fun e he => ?_)
  rw [(Finset.mem_filter.1 he).2.2]

end Cert.LibGraph
-- ==== Proof.Bridge.lean ====
import proofs.«424795_j47278999994618_2_alg».proof.Proof.Spec
import proofs.«424795_j47278999994618_2_alg».proof.Proof.LibGraph
import Idealize.ShloMosaic.PureOps.Ideal
import Idealize.ShloMosaic.Lib.ValueIdx
import Mathlib.Algebra.BigOperators.Fin

noncomputable section

open scoped BigOperators

namespace Cert.Bridge

open Idealize.ShloMosaic Idealize.ShloMosaic.ValueIdx Cert.Spec

theorem fc1Arr_apply (xp : (⟨2, ![10240, 384]⟩ : Shape).Idx → EReal) (W1 : (⟨2, ![256, 384]⟩ : Shape).Idx → EReal)
    (b1r : (⟨2, ![1, 256]⟩ : Shape).Idx → EReal) (r : Fin 10240) (c : Fin 256) :
    fc1Arr xp W1 b1r (ix2 r c) = if r.val < 10000 then
        max ((∑ k : Fin 384, xp (ix2 r k) * W1 (ix2 c k)) + b1r (ix2 (0 : Fin 1) c)) 0
      else 0 := rfl

theorem gcnArr_apply (A : (⟨2, ![10240, 10240]⟩ : Shape).Idx → EReal) (h : (⟨2, ![10240, 256]⟩ : Shape).Idx → EReal)
    (inv : (⟨2, ![10240, 1]⟩ : Shape).Idx → EReal) (r : Fin 10240) (c : Fin 256) :
    gcnArr A h inv (ix2 r c) = c07 * h (ix2 r c)
      + (c03 * ∑ k : Fin 10240, A (ix2 r k) * h (ix2 k c)) * inv (ix2 r (0 : Fin 1)) := rfl

theorem fc2Arr_apply (h : (⟨2, ![10240, 256]⟩ : Shape).Idx → EReal) (W2 : (⟨2, ![128, 256]⟩ : Shape).Idx → EReal)
    (b2r : (⟨2, ![1, 128]⟩ : Shape).Idx → EReal) (r : Fin 10240) (o : Fin 128) :
    fc2Arr h W2 b2r (ix2 r o) = max ((∑ k : Fin 256, h (ix2 r k) * W2 (ix2 o k)) + b2r (ix2 (0 : Fin 1) o)) 0 := rfl

theorem attOfArr_apply (o : (⟨2, ![10240, 128]⟩ : Shape).Idx → EReal) (Wa1 : (⟨2, ![64, 128]⟩ : Shape).Idx → EReal)
    (ba1r : (⟨2, ![1, 64]⟩ : Shape).Idx → EReal) (Wa2 : (⟨2, ![1, 64]⟩ : Shape).Idx → EReal)
    (ba2r : (⟨2, ![1, 1]⟩ : Shape).Idx → EReal) (r : Fin 10240) (z : Fin 1) :
    attOfArr o Wa1 ba1r Wa2 ba2r (ix2 r z) = Ideal.logistic
      ((∑ q : Fin 64, max ((∑ p : Fin 128, o (ix2 r p) * Wa1 (ix2 q p)) + ba1r (ix2 (0 : Fin 1) q)) 0 * Wa2 (ix2 (0 : Fin 1) q))
        + ba2r (ix2 (0 : Fin 1) (0 : Fin 1))) := rfl

theorem sum_eq_sum_castLE {M N : ℕ} (h : M ≤ N) (f : Fin N → EReal) (hf : ∀ k : Fin N, M ≤ k.val → f k = 0) :
    ∑ k : Fin N, f k = ∑ k : Fin M, f (Fin.castLE h k) := by
  obtain ⟨d, rfl⟩ := Nat.exists_eq_add_of_le h
  rw [Fin.sum_univ_add]
  have h2 : ∑ k : Fin d, f (Fin.natAdd M k) = 0 :=
    Finset.sum_eq_zero (fun k _ => hf _ (by simp [Fin.natAdd]))
  rw [h2, add_zero]
  rfl

section Step

variable (s t : Fin 320000 → Fin 10000)
  (A : (⟨2, ![10240, 10240]⟩ : Shape).Idx → EReal) (invr : (⟨2, ![10240, 1]⟩ : Shape).Idx → EReal)
  (hA : ∀ r k : Fin 10240, A (ix2 r k) = (((Finset.univ.filter (fun e : Fin 320000 => (t e).val = r.val ∧ (s e).val = k.val)).card : ℝ) : EReal))
  (hinv : ∀ r : Fin 10240, invr (ix2 r (0 : Fin 1)) = Ideal.div 1 ((∑ _e ∈ Finset.univ.filter (fun e : Fin 320000 => (t e).val = r.val), (1 : EReal)) + 1))

include hA in

theorem adj_pad (r k : Fin 10240) (hr : 10000 ≤ r.val) : A (ix2 r k) = 0 := by
  have he : Finset.univ.filter (fun e : Fin 320000 => (t e).val = r.val ∧ (s e).val = k.val) = ∅ :=
    Finset.filter_eq_empty_iff.mpr (fun e _ h => by have := (t e).isLt; omega)
  rw [hA, he]; simp

include hA in

theorem adj_node (i k : Fin 10000) :
    A (ix2 (⟨i.val, by omega⟩ : Fin 10240) (Fin.castLE (by norm_num : 10000 ≤ 10240) k))
      = (((Finset.univ.filter (fun e : Fin 320000 => t e = i ∧ s e = k)).card : ℝ) : EReal) := by
  have he : Finset.univ.filter (fun e : Fin 320000 => (t e).val = i.val ∧ (s e).val = k.val)
      = Finset.univ.filter (fun e : Fin 320000 => t e = i ∧ s e = k) :=
    Finset.filter_congr (fun e _ => by rw [Fin.ext_iff, Fin.ext_iff])
  rw [hA]; exact congrArg (fun F : Finset (Fin 320000) => ((F.card : ℝ) : EReal)) he

include hinv in

theorem invr_node (i : Fin 10000) : invr (ix2 (⟨i.val, by omega⟩ : Fin 10240) (0 : Fin 1)) = Spec.inv t i := by
  have he : Finset.univ.filter (fun e : Fin 320000 => (t e).val = i.val)
      = Finset.univ.filter (fun e : Fin 320000 => t e = i) :=
    Finset.filter_congr (fun e _ => by rw [Fin.ext_iff])
  rw [hinv]; unfold Spec.inv Spec.dsum
  exact congrArg (fun F : Finset (Fin 320000) => Ideal.div 1 ((∑ _e ∈ F, (1 : EReal)) + 1)) he

variable (g : (⟨2, ![10240, 256]⟩ : Shape).Idx → EReal) (G : Fin 10000 → Fin 256 → EReal)
  (hlo : ∀ (i : Fin 10000) (c : Fin 256), g (ix2 (⟨i.val, by omega⟩ : Fin 10240) c) = G i c)
  (hhi : ∀ (r : Fin 10240) (c : Fin 256), 10000 ≤ r.val → g (ix2 r c) = 0)

include hA hlo hhi in

theorem row_node (i : Fin 10000) (c : Fin 256) :
    ∑ k : Fin 10240, A (ix2 (⟨i.val, by omega⟩ : Fin 10240) k) * g (ix2 k c) = Spec.agg s t G i c := by
  rw [sum_eq_sum_castLE (by norm_num : 10000 ≤ 10240) _ (fun k hk => by rw [hhi k c hk, mul_zero])]
  unfold Spec.agg
  rw [← Cert.LibGraph.sum_count_mul s (fun e => t e = i) (fun k => G k c)]
  refine Finset.sum_congr rfl (fun k _ => ?_)
  rw [adj_node s t A hA i k]
  exact congrArg _ (hlo k c)

include hA in

theorem row_pad (r : Fin 10240) (hr : 10000 ≤ r.val) (c : Fin 256) :
    ∑ k : Fin 10240, A (ix2 r k) * g (ix2 k c) = 0 :=
  Finset.sum_eq_zero (fun k _ => by rw [adj_pad s t A hA r k hr, zero_mul])

include hA hinv hlo hhi in

theorem gcn_node (i : Fin 10000) (c : Fin 256) :
    gcnArr A g invr (ix2 (⟨i.val, by omega⟩ : Fin 10240) c) = Spec.layer s t G i c := by
  rw [gcnArr_apply, hlo i c, row_node s t A hA g G hlo hhi i c, invr_node t invr hinv i]
  rfl

include hA hhi in

theorem gcn_pad (r : Fin 10240) (hr : 10000 ≤ r.val) (c : Fin 256) : gcnArr A g invr (ix2 r c) = 0 := by
  rw [gcnArr_apply, hhi r c hr, row_pad s t A hA g r hr c, mul_zero, mul_zero, zero_mul, add_zero]

end Step

section
variable (s t : Fin 320000 → Fin 10000)
  (x : (⟨2, ![10000, 384]⟩ : Shape).Idx → EReal) (W1 : (⟨2, ![256, 384]⟩ : Shape).Idx → EReal) (b1 : (⟨1, ![256]⟩ : Shape).Idx → EReal)
  (W2 : (⟨2, ![128, 256]⟩ : Shape).Idx → EReal) (b2 : (⟨1, ![128]⟩ : Shape).Idx → EReal) (Wa1 : (⟨2, ![64, 128]⟩ : Shape).Idx → EReal)
  (ba1 : (⟨1, ![64]⟩ : Shape).Idx → EReal) (Wa2 : (⟨2, ![1, 64]⟩ : Shape).Idx → EReal) (ba2 : (⟨1, ![1]⟩ : Shape).Idx → EReal)
  (xp : (⟨2, ![10240, 384]⟩ : Shape).Idx → EReal) (b1r : (⟨2, ![1, 256]⟩ : Shape).Idx → EReal) (b2r : (⟨2, ![1, 128]⟩ : Shape).Idx → EReal)
  (ba1r : (⟨2, ![1, 64]⟩ : Shape).Idx → EReal) (ba2r : (⟨2, ![1, 1]⟩ : Shape).Idx → EReal)
  (A : (⟨2, ![10240, 10240]⟩ : Shape).Idx → EReal) (invr : (⟨2, ![10240, 1]⟩ : Shape).Idx → EReal)
  (hxp : ∀ (r : Fin 10240) (k : Fin 384), xp (ix2 r k) = if h : r.val < 10000 then x (ix2 (⟨r.val, h⟩ : Fin 10000) k) else 0)
  (hb1r : ∀ c : Fin 256, b1r (ix2 (0 : Fin 1) c) = b1 (ix1 c))
  (hb2r : ∀ o : Fin 128, b2r (ix2 (0 : Fin 1) o) = b2 (ix1 o))
  (hba1r : ∀ q : Fin 64, ba1r (ix2 (0 : Fin 1) q) = ba1 (ix1 q))
  (hba2r : ba2r (ix2 (0 : Fin 1) (0 : Fin 1)) = ba2 (ix1 (0 : Fin 1)))
  (hA : ∀ r k : Fin 10240, A (ix2 r k) = (((Finset.univ.filter (fun e : Fin 320000 => (t e).val = r.val ∧ (s e).val = k.val)).card : ℝ) : EReal))
  (hinv : ∀ r : Fin 10240, invr (ix2 r (0 : Fin 1)) = Ideal.div 1 ((∑ _e ∈ Finset.univ.filter (fun e : Fin 320000 => (t e).val = r.val), (1 : EReal)) + 1))

include hxp hb1r in

theorem fc1_node (i : Fin 10000) (c : Fin 256) :
    fc1Arr xp W1 b1r (ix2 (⟨i.val, by omega⟩ : Fin 10240) c) = Spec.h0 x W1 b1 i c := by
  have hx : ∀ k : Fin 384, xp (ix2 (⟨i.val, by omega⟩ : Fin 10240) k) = x (ix2 i k) := fun k => by
    rw [hxp, dif_pos (show (⟨i.val, by omega⟩ : Fin 10240).val < 10000 from i.isLt)]
  rw [fc1Arr_apply, if_pos (show (⟨i.val, by omega⟩ : Fin 10240).val < 10000 from i.isLt), hb1r]
  simp only [hx]
  rfl

theorem fc1_pad (r : Fin 10240) (c : Fin 256) (hr : 10000 ≤ r.val) : fc1Arr xp W1 b1r (ix2 r c) = 0 := by
  rw [fc1Arr_apply, if_neg (by omega)]

include hxp hb1r hA hinv in

theorem h2_node (i : Fin 10000) (c : Fin 256) :
    gcnArr A (gcnArr A (fc1Arr xp W1 b1r) invr) invr (ix2 (⟨i.val, by omega⟩ : Fin 10240) c) = Spec.h2 s t x W1 b1 i c :=
  gcn_node s t A invr hA hinv (gcnArr A (fc1Arr xp W1 b1r) invr) (Spec.layer s t (Spec.h0 x W1 b1))
    (fun i' c' => gcn_node s t A invr hA hinv (fc1Arr xp W1 b1r) (Spec.h0 x W1 b1)
      (fc1_node x W1 b1 xp b1r hxp hb1r) (fc1_pad W1 xp b1r) i' c')
    (fun r c' hr => gcn_pad s t A invr hA (fc1Arr xp W1 b1r) (fc1_pad W1 xp b1r) r hr c')
    i c

include hxp hb1r hb2r hA hinv in

theorem bridge_out (i : Fin 10000) (o : Fin 128) :
    fc2Arr (gcnArr A (gcnArr A (fc1Arr xp W1 b1r) invr) invr) W2 b2r (ix2 (⟨i.val, by omega⟩ : Fin 10240) o) = Spec.out s t x W1 b1 W2 b2 i o := by
  rw [fc2Arr_apply, hb2r]
  simp only [h2_node s t x W1 b1 xp b1r A invr hxp hb1r hA hinv i]
  rfl

include hxp hb1r hb2r hba1r hba2r hA hinv in

theorem bridge_att (i : Fin 10000) :
    attOfArr (fc2Arr (gcnArr A (gcnArr A (fc1Arr xp W1 b1r) invr) invr) W2 b2r) Wa1 ba1r Wa2 ba2r (ix2 (⟨i.val, by omega⟩ : Fin 10240) (0 : Fin 1))
      = Spec.att s t x W1 b1 W2 b2 Wa1 ba1 Wa2 ba2 i := by
  rw [attOfArr_apply, hba2r]
  simp only [bridge_out s t x W1 b1 W2 b2 xp b1r b2r A invr hxp hb1r hb2r hA hinv i, hba1r]
  rfl

end

end Cert.Bridge

end
-- ==== Proof.KI.Chain.lean ====
import proofs.«424795_j47278999994618_2_alg».proof.Proof.KI.Run
import proofs.«424795_j47278999994618_2_alg».proof.Proof.KI.Val0
import proofs.«424795_j47278999994618_2_alg».proof.Proof.KI.Val1
import proofs.«424795_j47278999994618_2_alg».proof.Proof.KI.Val2
import proofs.«424795_j47278999994618_2_alg».proof.Proof.KI.Val3
import proofs.«424795_j47278999994618_2_alg».proof.Proof.KI.HostVal
import proofs.«424795_j47278999994618_2_alg».proof.Proof.Bridge

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

theorem o4_eq : Hand.o4 m c = Cert.Spec.fc1Arr (Gen.V3 m c main_v30) (m ((c : Thread nD τ).loc main_arg2)) (Gen.V3 m c main_v31) := by
  have h := arr0_final (Hand.U3 m) c
  rw [show Hand.U3 m c main_arg2 = m ((c : Thread nD τ).loc main_arg2) from v3_arg2 m c] at h
  exact h

theorem o5_eq : Hand.o5 m c = Cert.Spec.gcnArr (Gen.V3 m c main_v29) (Hand.o4 m c) (Gen.V3 m c main_v12) := by
  have h := arr1_final (Hand.U4 m) c
  rw [show Hand.U4 m c main_v29 = Gen.V3 m c main_v29 from v4_v29 m (Hand.outsA m) c,
    show Hand.U4 m c main_v12 = Gen.V3 m c main_v12 from v4_v12 m (Hand.outsA m) c,
    show Hand.U4 m c main_v32 = Hand.o4 m c from (v4_v32 m (Hand.outsA m) c).trans (Hand.outsA_v32 m 4 c)] at h
  exact h

theorem o6_eq : Hand.o6 m c = Cert.Spec.gcnArr (Gen.V3 m c main_v29) (Hand.o5 m c) (Gen.V3 m c main_v12) := by
  have h := arr2_final (Hand.U5 m) c
  rw [show Hand.U5 m c main_v29 = Gen.V3 m c main_v29 from v5_v29 m (Hand.outsB m) c,
    show Hand.U5 m c main_v12 = Gen.V3 m c main_v12 from v5_v12 m (Hand.outsB m) c,
    show Hand.U5 m c main_v33 = Hand.o5 m c from (v5_v33 m (Hand.outsB m) c).trans (Hand.outsB_v33 m 5 c)] at h
  exact h

theorem o8a_eq : Hand.o8a m c = Cert.Spec.fc2Arr (Hand.o6 m c) (m ((c : Thread nD τ).loc main_arg4)) (Gen.V7 m (Hand.outsC m) c main_v35) := by
  have h := arr3_out (Hand.U7 m) c
  rw [show Hand.U7 m c main_v34 = Hand.o6 m c from (v7_v34 m (Hand.outsC m) c).trans (Hand.outsC_v34 m 6 c),
    show Hand.U7 m c main_arg4 = m ((c : Thread nD τ).loc main_arg4) from v7_arg4 m (Hand.outsC m) c] at h
  exact h

theorem o8b_eq : Hand.o8b m c = Cert.Spec.attOfArr (Hand.o8a m c) (m ((c : Thread nD τ).loc main_arg6)) (Gen.V7 m (Hand.outsC m) c main_v36)
    (m ((c : Thread nD τ).loc main_arg8)) (Gen.V7 m (Hand.outsC m) c main_v37) := by
  have h := arr3_att (Hand.U7 m) c
  rw [← arr3_out (Hand.U7 m) c] at h
  rw [show Hand.U7 m c main_arg6 = m ((c : Thread nD τ).loc main_arg6) from v7_arg6 m (Hand.outsC m) c,
    show Hand.U7 m c main_arg8 = m ((c : Thread nD τ).loc main_arg8) from v7_arg8 m (Hand.outsC m) c] at h
  exact h

variable (s t : Fin 320000 → Fin 10000)
  (hs : ∀ e : Fin 320000, (m ((c : Thread nD τ).loc main_arg1) (ix2 (0 : Fin 2) e)).toInt = ((s e).val : ℤ))
  (ht : ∀ e : Fin 320000, (m ((c : Thread nD τ).loc main_arg1) (ix2 (1 : Fin 2) e)).toInt = ((t e).val : ℤ))

include hs ht in

theorem kout_eq : Gen.V9 m (Hand.outs m) c main_v39
    = Cert.Spec.outArr s t (m ((c : Thread nD τ).loc main_arg0)) (m ((c : Thread nD τ).loc main_arg2)) (m ((c : Thread nD τ).loc main_arg3))
        (m ((c : Thread nD τ).loc main_arg4)) (m ((c : Thread nD τ).loc main_arg5)) := by
  funext j
  obtain ⟨i, o, rfl⟩ : ∃ (i : Fin 10000) (o : Fin 128), j = ix2 i o := ⟨j 0, j 1, eq_ix2 j⟩
  rw [v39_apply m (Hand.outs m) c i o, Hand.outs_v38_0, o8a_eq, o6_eq, o5_eq, o4_eq]
  exact Cert.Bridge.bridge_out s t _ _ _ _ _ _ _ _ _ _ (v30_apply m c) (v31_apply m c) (v35_apply m (Hand.outsC m) c)
    (v29_apply m c hs ht) (v12_apply m c hs ht) i o

include hs ht in

theorem katt_eq : Gen.V9 m (Hand.outs m) c main_v40
    = Cert.Spec.attArr s t (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  funext j
  obtain ⟨i, z, rfl⟩ : ∃ (i : Fin 10000) (z : Fin 1), j = ix2 i z := ⟨j 0, j 1, eq_ix2 j⟩
  obtain rfl : z = 0 := Subsingleton.elim _ _
  rw [v40_apply m (Hand.outs m) c i, Hand.outs_v38_1, o8b_eq, o8a_eq, o6_eq, o5_eq, o4_eq]
  exact Cert.Bridge.bridge_att s t _ _ _ _ _ _ _ _ _ _ _ _ _ _ _ _ (v30_apply m c) (v31_apply m c) (v35_apply m (Hand.outsC m) c)
    (v36_apply m (Hand.outsC m) c) (v37_apply m (Hand.outsC m) c) (v29_apply m c hs ht) (v12_apply m c hs ht) i

end Cert.KernelIdeal.Val

end
-- ==== Proof.Same.lean ====
import proofs.«424795_j47278999994618_2_alg».proof.Defs
import proofs.«424795_j47278999994618_2_alg».proof.Proof.Gen.Kernel
import proofs.«424795_j47278999994618_2_alg».proof.Proof.Gen.KernelIdeal

set_option maxHeartbeats 10000000

noncomputable section

namespace Cert.Proof

open Idealize.ShloMosaic Idealize.SL.Sem

-- The two kernel programs are one text under two names: label by label the same kernel bodies,
theorem defs₀_same : Cert.Kernel.defs₀ (F := Bits) = Cert.KernelIdeal.defs₀ (F := Bits) :=
  congrArg Defs.onTc (funext fun l => funext fun x => by
    match l, x with
    | 0, (t, s) => rfl
    | 1, (t, s) => rfl
    | 2, (t, s) => rfl
    | 3, (t, s) => rfl
    | ⟨_ + 4, h⟩, _ => exact absurd h (Nat.not_lt.2 (Nat.le_add_left _ _)))

-- hence the same table of regions,
theorem defs_same : Cert.Kernel.defs (F := Bits) = Cert.KernelIdeal.defs (F := Bits) := by
  unfold Cert.Kernel.defs Cert.KernelIdeal.defs
  rw [defs₀_same]; rfl

-- and the same @main.
theorem main_same : Cert.Kernel.main (F := Bits) = Cert.KernelIdeal.main (F := Bits) := rfl

end Cert.Proof

end
-- ==== Proof.RefVal.lean ====
import proofs.«424795_j47278999994618_2_alg».proof.Defs
import proofs.«424795_j47278999994618_2_alg».proof.Proof.Gen.ReferenceIdeal.Run
import proofs.«424795_j47278999994618_2_alg».proof.Proof.Gen.ReferenceIdeal.Read
import proofs.«424795_j47278999994618_2_alg».proof.Proof.Spec
import proofs.«424795_j47278999994618_2_alg».proof.Proof.LibIndex

noncomputable section

namespace Cert.RefVal

open Idealize.ShloMosaic Idealize.ShloMosaic.ValueIdx Cert.ReferenceIdeal
open scoped BigOperators

theorem cmpi_slt_zero_of_nonneg (a : BitVec 32) (h : 0 ≤ a.toInt) : IntOp.cmpi .slt a 0#32 = 0#1 := by
  have hf : a.slt 0#32 = false := by
    rw [BitVec.slt_eq_decide]
    simp only [BitVec.toInt_zero, decide_eq_false_iff_not, not_lt]
    exact h
  show BitVec.ofBool (a.slt 0#32) = 0#1
  rw [hf]; rfl

theorem wrap_of_nonneg (a b : BitVec 32) (h : 0 ≤ a.toInt) :
    Scalar.select (IntOp.cmpi .slt a 0#32) (IntOp.addi a b) a = a := by
  rw [cmpi_slt_zero_of_nonneg a h, select_zero]

section Agg

variable (s t : Fin 320000 → Fin 10000)

theorem agg_rows (H : FVec Ideal S10000x256 .f32) (h : Fin 10000 → Fin 256 → EReal)
    (hH : ∀ (i : Fin 10000) (c : Fin 256), H (ix2 i c) = h i c)
    (z : FVec Ideal S10000x256 .f32) (hz : ∀ (i : Fin 10000) (c : Fin 256), z (ix2 i c) = 0)
    (iT iS : IVec S320000x1 32)
    (hT : ∀ e : Fin 320000, (iT (ix2 e (0 : Fin 1))).toInt = ((t e).val : ℤ))
    (hS : ∀ e : Fin 320000, (iS (ix2 e (0 : Fin 1))).toInt = ((s e).val : ℤ))
    (i : Fin 10000) (c : Fin 256) :
    Host.scatterAdd (F := Ideal) (φ := .f32) scatter_S10000x256_S320000x1_S320000x256_1_0_0_1 z iT
        (Host.gather gather_S10000x256_S320000x1_S320000x256_1_0_n_n_0_1_1256 H iS) (ix2 i c)
      = Spec.agg s t h i c := by
  generalize hG : Host.gather gather_S10000x256_S320000x1_S320000x256_1_0_n_n_0_1_1256 H iS = G
  have hGe : ∀ (e : Fin 320000), G (ix2 e c) = h (s e) c := fun e => by
    rw [← hG, Cert.LibIndex.gather_rows_apply gather_S10000x256_S320000x1_S320000x256_1_0_n_n_0_1_1256
      rfl rfl rfl rfl rfl rfl rfl H iS e c (s e) (hS e), hH]
  unfold Host.scatterAdd
  rw [Ideal.hostScatterAdd_def,
    Cert.LibIndex.scatterAdd_rows_apply scatter_S10000x256_S320000x1_S320000x256_1_0_0_1 rfl rfl rfl rfl z iT G i c,
    hz, zero_add]
  unfold Spec.agg
  refine Finset.sum_congr (Finset.filter_congr fun e _ => ?_) (fun e _ => hGe e)
  rw [hT e]
  exact ⟨fun h' => Fin.ext (by exact_mod_cast h'), fun h' => by rw [h']⟩

end Agg

theorem deg_vec (t : Fin 320000 → Fin 10000) (z : FVec Ideal S10000 .f32) (hz : ∀ i : Fin 10000, z (ix1 i) = 0)
    (iT : IVec S320000x1 32)
    (hT : ∀ e : Fin 320000, (iT (ix2 e (0 : Fin 1))).toInt = ((t e).val : ℤ))
    (u : FVec Ideal S320000 .f32) (hu : ∀ e : Fin 320000, u (ix1 e) = 1) (i : Fin 10000) :
    Host.scatterAdd (F := Ideal) (φ := .f32) scatter_S10000_S320000x1_S320000_n_0_0_1 z iT u (ix1 i)
      = Spec.dsum t i := by
  unfold Host.scatterAdd
  rw [Ideal.hostScatterAdd_def,
    Cert.LibIndex.scatterAdd_vec_apply scatter_S10000_S320000x1_S320000_n_0_0_1 rfl rfl rfl rfl z iT u i,
    hz, zero_add]
  unfold Spec.dsum
  refine Finset.sum_congr (Finset.filter_congr fun e _ => ?_) (fun e _ => hu e)
  rw [hT e]
  exact ⟨fun h' => Fin.ext (by exact_mod_cast h'), fun h' => by rw [h']⟩

open Cert.ReferenceIdeal.Read

section Ref

variable (s t : Fin 320000 → Fin 10000)
  (x0 : (⟨S10000x384, .f32⟩ : BufTy).Contents (Elt Ideal)) (x1 : (⟨S2x320000, .i32⟩ : BufTy).Contents (Elt Ideal))
  (x2 : (⟨S256x384, .f32⟩ : BufTy).Contents (Elt Ideal)) (x3 : (⟨S256, .f32⟩ : BufTy).Contents (Elt Ideal))
  (x4 : (⟨S128x256, .f32⟩ : BufTy).Contents (Elt Ideal)) (x5 : (⟨S128, .f32⟩ : BufTy).Contents (Elt Ideal))
  (x6 : (⟨S64x128, .f32⟩ : BufTy).Contents (Elt Ideal)) (x7 : (⟨S64, .f32⟩ : BufTy).Contents (Elt Ideal))
  (x8 : (⟨S1x64, .f32⟩ : BufTy).Contents (Elt Ideal)) (x9 : (⟨S1, .f32⟩ : BufTy).Contents (Elt Ideal))

theorem src_word (e : Fin 320000) : val_main_v7 (F := Ideal) x1 (ix1 e) = x1 (ix2 (0 : Fin 2) e) := by
  rw [val_main_v7_apply, val_main_v6_apply]
  exact congrArg x1 (funext fun a => Fin.ext (by
    match a with
    | ⟨0, _⟩ => rfl
    | ⟨1, _⟩ => exact Nat.mod_eq_of_lt e.isLt))

theorem tgt_word (e : Fin 320000) : val_main_v9 (F := Ideal) x1 (ix1 e) = x1 (ix2 (1 : Fin 2) e) := by
  rw [val_main_v9_apply, val_main_v8_apply]
  exact congrArg x1 (funext fun a => Fin.ext (by
    match a with
    | ⟨0, _⟩ => rfl
    | ⟨1, _⟩ => exact Nat.mod_eq_of_lt e.isLt))

theorem tgt_col12 (ht : ∀ e : Fin 320000, (x1 (ix2 (1 : Fin 2) e)).toInt = ((t e).val : ℤ)) (e : Fin 320000) :
    (val_main_v12 (F := Ideal) x1 (ix2 e (0 : Fin 1))).toInt = ((t e).val : ℤ) := by
  rw [val_main_v12_apply,
    show idx_main_v12 (ix2 e (0 : Fin 1)) = ix1 e from funext fun a => Fin.ext (by match a with | ⟨0, _⟩ => rfl),
    tgt_word]
  exact ht e

theorem tgt_col26 (ht : ∀ e : Fin 320000, (x1 (ix2 (1 : Fin 2) e)).toInt = ((t e).val : ℤ)) (e : Fin 320000) :
    (val_main_v26 (F := Ideal) x1 (ix2 e (0 : Fin 1))).toInt = ((t e).val : ℤ) := by
  rw [val_main_v26_apply,
    show idx_main_v26 (ix2 e (0 : Fin 1)) = ix1 e from funext fun a => Fin.ext (by match a with | ⟨0, _⟩ => rfl),
    tgt_word]
  exact ht e

theorem tgt_col44 (ht : ∀ e : Fin 320000, (x1 (ix2 (1 : Fin 2) e)).toInt = ((t e).val : ℤ)) (e : Fin 320000) :
    (val_main_v44 (F := Ideal) x1 (ix2 e (0 : Fin 1))).toInt = ((t e).val : ℤ) := by
  rw [val_main_v44_apply,
    show idx_main_v44 (ix2 e (0 : Fin 1)) = ix1 e from funext fun a => Fin.ext (by match a with | ⟨0, _⟩ => rfl),
    tgt_word]
  exact ht e

theorem src_col23 (hs : ∀ e : Fin 320000, (x1 (ix2 (0 : Fin 2) e)).toInt = ((s e).val : ℤ)) (e : Fin 320000) :
    (val_main_v23 (F := Ideal) x1 (ix2 e (0 : Fin 1))).toInt = ((s e).val : ℤ) := by
  rw [val_main_v23_apply,
    show idx_main_v23 (ix2 e (0 : Fin 1)) = ix1 e from funext fun a => Fin.ext (by match a with | ⟨0, _⟩ => rfl),
    val_main_v22_apply, val_main_v19_apply, val_main_v21_apply, val_main_v18_apply, val_main_c_apply, src_word,
    wrap_of_nonneg _ _ (by rw [hs e]; exact Int.natCast_nonneg _)]
  exact hs e

theorem src_col41 (hs : ∀ e : Fin 320000, (x1 (ix2 (0 : Fin 2) e)).toInt = ((s e).val : ℤ)) (e : Fin 320000) :
    (val_main_v41 (F := Ideal) x1 (ix2 e (0 : Fin 1))).toInt = ((s e).val : ℤ) := by
  rw [val_main_v41_apply,
    show idx_main_v41 (ix2 e (0 : Fin 1)) = ix1 e from funext fun a => Fin.ext (by match a with | ⟨0, _⟩ => rfl),
    val_main_v40_apply, val_main_v37_apply, val_main_v39_apply, val_main_v36_apply, val_main_c_7_apply, src_word,
    wrap_of_nonneg _ _ (by rw [hs e]; exact Int.natCast_nonneg _)]
  exact hs e

theorem h0_eq (i : Fin 10000) (c : Fin 256) :
    val_main_v5 (F := Ideal) x0 x2 x3 (ix2 i c) = Spec.h0 x0 x2 x3 i c := by
  rw [val_main_v5_apply, val_main_v4_apply, val_main_v1_apply, val_main_v3_apply, val_main_v2_apply,
    val_main_call0_v0_apply, val_main_call0_cst_apply]
  have hsum : ∑ k : Fin 384, x0 (lidx_main_v1 (ix2 i c) k) * val_main_v0 (F := Ideal) x2 (ridx_main_v1 (ix2 i c) k)
      = ∑ k : Fin 384, x0 (ix2 i k) * x2 (ix2 c k) :=
    Finset.sum_congr rfl fun k _ => by
      rw [val_main_v0_apply]
      exact congrArg₂ (· * ·)
        (congrArg x0 (funext fun a => Fin.ext (by match a with | ⟨0, _⟩ => rfl | ⟨1, _⟩ => rfl)))
        (congrArg x2 (funext fun a => Fin.ext (by match a with | ⟨0, _⟩ => rfl | ⟨1, _⟩ => rfl)))
  rw [hsum, show idx_main_v2 (idx_main_v3 (ix2 i c)) = ix1 c from
    funext fun a => Fin.ext (by match a with | ⟨0, _⟩ => rfl)]
  simp only [Ideal.addf_def, Ideal.maximumf_def, Ideal.ofBits_def, Ideal.ofBits_zero_f32]
  rfl

theorem inv_eq (ht : ∀ e : Fin 320000, (x1 (ix2 (1 : Fin 2) e)).toInt = ((t e).val : ℤ)) (i : Fin 10000) :
    val_main_v17 (F := Ideal) x1 (ix1 i) = Spec.inv t i := by
  have hd : val_main_v13 (F := Ideal) x1 (ix1 i) = Spec.dsum t i := by
    unfold val_main_v13
    exact deg_vec t (val_main_v11 (F := Ideal))
      (fun i => by rw [val_main_v11_apply, val_main_cst_0_apply, Ideal.ofBits_def, Ideal.ofBits_zero_f32])
      (val_main_v12 (F := Ideal) x1) (tgt_col12 t x1 ht) (val_main_v10 (F := Ideal))
      (fun e => by rw [val_main_v10_apply, val_main_cst_apply, Ideal.ofBits_def, Spec.ofBits_one_f32]) i
  rw [val_main_v17_apply, val_main_v16_apply, val_main_cst_2_apply, val_main_v15_apply, val_main_v14_apply,
    val_main_cst_1_apply, hd]
  simp only [Ideal.hostDivf_def, Ideal.addf_def, Ideal.ofBits_def, Spec.ofBits_one_f32]
  rfl

theorem agg1_eq (hs : ∀ e : Fin 320000, (x1 (ix2 (0 : Fin 2) e)).toInt = ((s e).val : ℤ))
    (ht : ∀ e : Fin 320000, (x1 (ix2 (1 : Fin 2) e)).toInt = ((t e).val : ℤ)) (i : Fin 10000) (c : Fin 256) :
    val_main_v27 (F := Ideal) x0 x1 x2 x3 (ix2 i c) = Spec.agg s t (Spec.h0 x0 x2 x3) i c := by
  unfold val_main_v27 val_main_v24
  exact agg_rows s t (val_main_v5 (F := Ideal) x0 x2 x3) (Spec.h0 x0 x2 x3) (h0_eq x0 x2 x3)
    (val_main_v25 (F := Ideal))
    (fun i c => by rw [val_main_v25_apply, val_main_cst_4_apply, Ideal.ofBits_def, Ideal.ofBits_zero_f32])
    (val_main_v26 (F := Ideal) x1) (val_main_v23 (F := Ideal) x1) (tgt_col26 t x1 ht) (src_col23 s x1 hs) i c

theorem layer1_eq (hs : ∀ e : Fin 320000, (x1 (ix2 (0 : Fin 2) e)).toInt = ((s e).val : ℤ))
    (ht : ∀ e : Fin 320000, (x1 (ix2 (1 : Fin 2) e)).toInt = ((t e).val : ℤ)) (i : Fin 10000) (c : Fin 256) :
    val_main_v35 (F := Ideal) x0 x1 x2 x3 (ix2 i c) = Spec.layer s t (Spec.h0 x0 x2 x3) i c := by
  rw [val_main_v35_apply, val_main_v29_apply, val_main_v28_apply, val_main_cst_5_apply, val_main_v34_apply,
    val_main_v31_apply, val_main_v30_apply, val_main_cst_6_apply, val_main_v33_apply, val_main_v32_apply,
    show idx_main_v32 (idx_main_v33 (ix2 i c)) = ix1 i from funext fun a => Fin.ext (by match a with | ⟨0, _⟩ => rfl),
    h0_eq, agg1_eq s t x0 x1 x2 x3 hs ht, inv_eq t x1 ht]
  simp only [Ideal.mulf_def, Ideal.addf_def, Ideal.ofBits_def]
  rfl

theorem agg2_eq (hs : ∀ e : Fin 320000, (x1 (ix2 (0 : Fin 2) e)).toInt = ((s e).val : ℤ))
    (ht : ∀ e : Fin 320000, (x1 (ix2 (1 : Fin 2) e)).toInt = ((t e).val : ℤ)) (i : Fin 10000) (c : Fin 256) :
    val_main_v45 (F := Ideal) x0 x1 x2 x3 (ix2 i c) = Spec.agg s t (Spec.layer s t (Spec.h0 x0 x2 x3)) i c := by
  unfold val_main_v45 val_main_v42
  exact agg_rows s t (val_main_v35 (F := Ideal) x0 x1 x2 x3) (Spec.layer s t (Spec.h0 x0 x2 x3))
    (layer1_eq s t x0 x1 x2 x3 hs ht)
    (val_main_v43 (F := Ideal))
    (fun i c => by rw [val_main_v43_apply, val_main_cst_9_apply, Ideal.ofBits_def, Ideal.ofBits_zero_f32])
    (val_main_v44 (F := Ideal) x1) (val_main_v41 (F := Ideal) x1) (tgt_col44 t x1 ht) (src_col41 s x1 hs) i c

theorem layer2_eq (hs : ∀ e : Fin 320000, (x1 (ix2 (0 : Fin 2) e)).toInt = ((s e).val : ℤ))
    (ht : ∀ e : Fin 320000, (x1 (ix2 (1 : Fin 2) e)).toInt = ((t e).val : ℤ)) (i : Fin 10000) (c : Fin 256) :
    val_main_v53 (F := Ideal) x0 x1 x2 x3 (ix2 i c) = Spec.h2 s t x0 x2 x3 i c := by
  rw [val_main_v53_apply, val_main_v47_apply, val_main_v46_apply, val_main_cst_10_apply, val_main_v52_apply,
    val_main_v49_apply, val_main_v48_apply, val_main_cst_11_apply, val_main_v51_apply, val_main_v50_apply,
    show idx_main_v50 (idx_main_v51 (ix2 i c)) = ix1 i from funext fun a => Fin.ext (by match a with | ⟨0, _⟩ => rfl),
    layer1_eq s t x0 x1 x2 x3 hs ht, agg2_eq s t x0 x1 x2 x3 hs ht, inv_eq t x1 ht]
  simp only [Ideal.mulf_def, Ideal.addf_def, Ideal.ofBits_def]
  rfl

theorem out_at (hs : ∀ e : Fin 320000, (x1 (ix2 (0 : Fin 2) e)).toInt = ((s e).val : ℤ))
    (ht : ∀ e : Fin 320000, (x1 (ix2 (1 : Fin 2) e)).toInt = ((t e).val : ℤ)) (i : Fin 10000) (o : Fin 128) :
    val_main_v59 (F := Ideal) x0 x1 x2 x3 x4 x5 (ix2 i o) = Spec.out s t x0 x2 x3 x4 x5 i o := by
  rw [val_main_v59_apply, val_main_v58_apply, val_main_v55_apply, val_main_v57_apply, val_main_v56_apply,
    val_main_call1_v0_apply, val_main_call1_cst_apply]
  have hsum : ∑ k : Fin 256, val_main_v53 (F := Ideal) x0 x1 x2 x3 (lidx_main_v55 (ix2 i o) k)
        * val_main_v54 (F := Ideal) x4 (ridx_main_v55 (ix2 i o) k)
      = ∑ k : Fin 256, Spec.h2 s t x0 x2 x3 i k * x4 (ix2 o k) :=
    Finset.sum_congr rfl fun k _ => by
      rw [show lidx_main_v55 (ix2 i o) k = ix2 i k from
          funext fun a => Fin.ext (by match a with | ⟨0, _⟩ => rfl | ⟨1, _⟩ => rfl),
        layer2_eq s t x0 x1 x2 x3 hs ht, val_main_v54_apply,
        show idx_main_v54 (ridx_main_v55 (ix2 i o) k) = ix2 o k from
          funext fun a => Fin.ext (by match a with | ⟨0, _⟩ => rfl | ⟨1, _⟩ => rfl)]
  rw [hsum, show idx_main_v56 (idx_main_v57 (ix2 i o)) = ix1 o from
    funext fun a => Fin.ext (by match a with | ⟨0, _⟩ => rfl)]
  simp only [Ideal.addf_def, Ideal.maximumf_def, Ideal.ofBits_def, Ideal.ofBits_zero_f32]
  rfl

theorem a1_at (hs : ∀ e : Fin 320000, (x1 (ix2 (0 : Fin 2) e)).toInt = ((s e).val : ℤ))
    (ht : ∀ e : Fin 320000, (x1 (ix2 (1 : Fin 2) e)).toInt = ((t e).val : ℤ)) (i : Fin 10000) (q : Fin 64) :
    val_main_v65 (F := Ideal) x0 x1 x2 x3 x4 x5 x6 x7 (ix2 i q) = Spec.a1 s t x0 x2 x3 x4 x5 x6 x7 i q := by
  rw [val_main_v65_apply, val_main_v64_apply, val_main_v61_apply, val_main_v63_apply, val_main_v62_apply,
    val_main_call2_v0_apply, val_main_call2_cst_apply]
  have hsum : ∑ k : Fin 128, val_main_v59 (F := Ideal) x0 x1 x2 x3 x4 x5 (lidx_main_v61 (ix2 i q) k)
        * val_main_v60 (F := Ideal) x6 (ridx_main_v61 (ix2 i q) k)
      = ∑ k : Fin 128, Spec.out s t x0 x2 x3 x4 x5 i k * x6 (ix2 q k) :=
    Finset.sum_congr rfl fun k _ => by
      rw [show lidx_main_v61 (ix2 i q) k = ix2 i k from
          funext fun a => Fin.ext (by match a with | ⟨0, _⟩ => rfl | ⟨1, _⟩ => rfl),
        out_at s t x0 x1 x2 x3 x4 x5 hs ht, val_main_v60_apply,
        show idx_main_v60 (ridx_main_v61 (ix2 i q) k) = ix2 q k from
          funext fun a => Fin.ext (by match a with | ⟨0, _⟩ => rfl | ⟨1, _⟩ => rfl)]
  rw [hsum, show idx_main_v62 (idx_main_v63 (ix2 i q)) = ix1 q from
    funext fun a => Fin.ext (by match a with | ⟨0, _⟩ => rfl)]
  simp only [Ideal.addf_def, Ideal.maximumf_def, Ideal.ofBits_def, Ideal.ofBits_zero_f32]
  rfl

theorem a2_at (hs : ∀ e : Fin 320000, (x1 (ix2 (0 : Fin 2) e)).toInt = ((s e).val : ℤ))
    (ht : ∀ e : Fin 320000, (x1 (ix2 (1 : Fin 2) e)).toInt = ((t e).val : ℤ)) (i : Fin 10000) :
    val_main_v70 (F := Ideal) x0 x1 x2 x3 x4 x5 x6 x7 x8 x9 (ix2 i (0 : Fin 1))
      = Spec.a2 s t x0 x2 x3 x4 x5 x6 x7 x8 x9 i := by
  rw [val_main_v70_apply, val_main_v67_apply, val_main_v69_apply, val_main_v68_apply]
  have hsum : ∑ k : Fin 64, val_main_v65 (F := Ideal) x0 x1 x2 x3 x4 x5 x6 x7 (lidx_main_v67 (ix2 i (0 : Fin 1)) k)
        * val_main_v66 (F := Ideal) x8 (ridx_main_v67 (ix2 i (0 : Fin 1)) k)
      = ∑ k : Fin 64, Spec.a1 s t x0 x2 x3 x4 x5 x6 x7 i k * x8 (ix2 (0 : Fin 1) k) :=
    Finset.sum_congr rfl fun k _ => by
      rw [show lidx_main_v67 (ix2 i (0 : Fin 1)) k = ix2 i k from
          funext fun a => Fin.ext (by match a with | ⟨0, _⟩ => rfl | ⟨1, _⟩ => rfl),
        a1_at s t x0 x1 x2 x3 x4 x5 x6 x7 hs ht, val_main_v66_apply,
        show idx_main_v66 (ridx_main_v67 (ix2 i (0 : Fin 1)) k) = ix2 (0 : Fin 1) k from
          funext fun a => Fin.ext (by match a with | ⟨0, _⟩ => rfl | ⟨1, _⟩ => rfl)]
  rw [hsum, show idx_main_v68 (idx_main_v69 (ix2 i (0 : Fin 1))) = ix1 (0 : Fin 1) from
    funext fun a => Fin.ext (by match a with | ⟨0, _⟩ => rfl)]
  simp only [Ideal.addf_def]
  rfl

theorem att_at (hs : ∀ e : Fin 320000, (x1 (ix2 (0 : Fin 2) e)).toInt = ((s e).val : ℤ))
    (ht : ∀ e : Fin 320000, (x1 (ix2 (1 : Fin 2) e)).toInt = ((t e).val : ℤ)) (i : Fin 10000) :
    val_main_v76 (F := Ideal) x0 x1 x2 x3 x4 x5 x6 x7 x8 x9 (ix2 i (0 : Fin 1))
      = Spec.att s t x0 x2 x3 x4 x5 x6 x7 x8 x9 i := by
  rw [val_main_v76_apply, val_main_v75_apply, val_main_cst_13_apply, val_main_v74_apply, val_main_v73_apply,
    val_main_cst_12_apply, val_main_v72_apply, val_main_v71_apply, a2_at s t x0 x1 x2 x3 x4 x5 x6 x7 x8 x9 hs ht]
  simp only [Ideal.hostDivf_def, Ideal.addf_def, Ideal.hostNegf_def, Ideal.negf_def, Ideal.hostUnary_exp_def,
    Ideal.ofBits_def, Spec.ofBits_one_f32]
  rfl

end Ref

theorem out_eq (s t : Fin 320000 → Fin 10000)
    (x0 : (⟨S10000x384, .f32⟩ : BufTy).Contents (Elt Ideal)) (x1 : (⟨S2x320000, .i32⟩ : BufTy).Contents (Elt Ideal))
    (x2 : (⟨S256x384, .f32⟩ : BufTy).Contents (Elt Ideal)) (x3 : (⟨S256, .f32⟩ : BufTy).Contents (Elt Ideal))
    (x4 : (⟨S128x256, .f32⟩ : BufTy).Contents (Elt Ideal)) (x5 : (⟨S128, .f32⟩ : BufTy).Contents (Elt Ideal))
    (x6 : (⟨S64x128, .f32⟩ : BufTy).Contents (Elt Ideal)) (x7 : (⟨S64, .f32⟩ : BufTy).Contents (Elt Ideal))
    (x8 : (⟨S1x64, .f32⟩ : BufTy).Contents (Elt Ideal)) (x9 : (⟨S1, .f32⟩ : BufTy).Contents (Elt Ideal))
    (hs : ∀ e : Fin 320000, (x1 (ValueIdx.ix2 (0 : Fin 2) e)).toInt = ((s e).val : ℤ))
    (ht : ∀ e : Fin 320000, (x1 (ValueIdx.ix2 (1 : Fin 2) e)).toInt = ((t e).val : ℤ)) :
    Cert.ReferenceIdeal.Read.val_main_v59 (F := Ideal) x0 x1 x2 x3 x4 x5 = Cert.Spec.outArr s t x0 x2 x3 x4 x5 := by
  funext j
  obtain ⟨i, o, rfl⟩ : ∃ (i : Fin 10000) (o : Fin 128), j = ix2 i o := ⟨j 0, j 1, eq_ix2 j⟩
  exact out_at s t x0 x1 x2 x3 x4 x5 hs ht i o

theorem att_eq (s t : Fin 320000 → Fin 10000)
    (x0 : (⟨S10000x384, .f32⟩ : BufTy).Contents (Elt Ideal)) (x1 : (⟨S2x320000, .i32⟩ : BufTy).Contents (Elt Ideal))
    (x2 : (⟨S256x384, .f32⟩ : BufTy).Contents (Elt Ideal)) (x3 : (⟨S256, .f32⟩ : BufTy).Contents (Elt Ideal))
    (x4 : (⟨S128x256, .f32⟩ : BufTy).Contents (Elt Ideal)) (x5 : (⟨S128, .f32⟩ : BufTy).Contents (Elt Ideal))
    (x6 : (⟨S64x128, .f32⟩ : BufTy).Contents (Elt Ideal)) (x7 : (⟨S64, .f32⟩ : BufTy).Contents (Elt Ideal))
    (x8 : (⟨S1x64, .f32⟩ : BufTy).Contents (Elt Ideal)) (x9 : (⟨S1, .f32⟩ : BufTy).Contents (Elt Ideal))
    (hs : ∀ e : Fin 320000, (x1 (ValueIdx.ix2 (0 : Fin 2) e)).toInt = ((s e).val : ℤ))
    (ht : ∀ e : Fin 320000, (x1 (ValueIdx.ix2 (1 : Fin 2) e)).toInt = ((t e).val : ℤ)) :
    Cert.ReferenceIdeal.Read.val_main_v76 (F := Ideal) x0 x1 x2 x3 x4 x5 x6 x7 x8 x9
      = Cert.Spec.attArr s t x0 x2 x3 x4 x5 x6 x7 x8 x9 := by
  funext j
  obtain ⟨i, z, rfl⟩ : ∃ (i : Fin 10000) (z : Fin 1), j = ix2 i z := ⟨j 0, j 1, eq_ix2 j⟩
  obtain rfl : z = 0 := Subsingleton.elim _ _
  exact att_at s t x0 x1 x2 x3 x4 x5 x6 x7 x8 x9 hs ht i

open Cert.ReferenceIdeal.Gen Idealize.ShloMosaic.TcCoe Idealize.SL.Sem Idealize.ShloMosaic.StableHlo

theorem res_out_eq (s t : Fin 320000 → Fin 10000) (m : (ℓ : Loc nD τ sig) → Buf (Elt Ideal) ℓ) (c : Dev nD)
    (hs : ∀ e : Fin 320000,
      (m ((c.tc : Thread nD τ).loc main_arg1) (ix2 (0 : Fin 2) e)).toInt = ((s e).val : ℤ))
    (ht : ∀ e : Fin 320000,
      (m ((c.tc : Thread nD τ).loc main_arg1) (ix2 (1 : Fin 2) e)).toInt = ((t e).val : ℤ)) :
    Cert.ReferenceIdeal.Value.res_main_v59 (F := Ideal) m c
      = Spec.outArr s t (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) :=
  (val_main_v59_eq (F := Ideal) m c).trans
    (out_eq s t _ _ _ _ _ _ (m ((c.tc : Thread nD τ).loc main_arg6)) (m ((c.tc : Thread nD τ).loc main_arg7))
      (m ((c.tc : Thread nD τ).loc main_arg8)) (m ((c.tc : Thread nD τ).loc main_arg9)) hs ht)

theorem res_att_eq (s t : Fin 320000 → Fin 10000) (m : (ℓ : Loc nD τ sig) → Buf (Elt Ideal) ℓ) (c : Dev nD)
    (hs : ∀ e : Fin 320000,
      (m ((c.tc : Thread nD τ).loc main_arg1) (ix2 (0 : Fin 2) e)).toInt = ((s e).val : ℤ))
    (ht : ∀ e : Fin 320000,
      (m ((c.tc : Thread nD τ).loc main_arg1) (ix2 (1 : Fin 2) e)).toInt = ((t e).val : ℤ)) :
    Cert.ReferenceIdeal.Value.res_main_v76 (F := Ideal) m c
      = Spec.attArr s t (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) :=
  (val_main_v76_eq (F := Ideal) m c).trans (att_eq s t _ _ _ _ _ _ _ _ _ _ hs ht)

end Cert.RefVal

end
-- ==== Proof.PreFacts.lean ====
import proofs.«424795_j47278999994618_2_alg».proof.Defs
import proofs.«424795_j47278999994618_2_alg».proof.Proof.Gen.Pre_finite_inputs
import Idealize.ShloMosaic.Lib.ValueIdx
import Idealize.ShloMosaic.Lib.ReduceAll

noncomputable section

namespace Cert.PreFacts

open Idealize.ShloMosaic Idealize.ShloMosaic.ValueIdx
open Cert.Pre_finite_inputs

theorem toInt_zero32 : (0#32 : BitVec 32).toInt = 0 := by decide

theorem toInt_tenThousand32 : (10000#32 : BitVec 32).toInt = 10000 := by decide

theorem word_range {F : FTy → Type} [FloatOps F] [Cert.Pre_finite_inputs.Facts]
    (x0 : FVec F S10000x384 .f32) (x1 : IVec S2x320000 32) (x2 : FVec F S256x384 .f32) (x3 : FVec F S256 .f32)
    (x4 : FVec F S128x256 .f32) (x5 : FVec F S128 .f32) (x6 : FVec F S64x128 .f32) (x7 : FVec F S64 .f32)
    (x8 : FVec F S1x64 .f32) (x9 : FVec F S1 .f32)
    (h : Cert.Pre_finite_inputs.fn (F := F) x0 x1 x2 x3 x4 x5 x6 x7 x8 x9 = fun _ => 1#1) (j : S2x320000.Idx) :
    0 ≤ (x1 j).toInt ∧ (x1 j).toInt < 10000 := by
  haveI : Subsingleton S_.Idx := ⟨fun a b => funext fun d => d.elim0⟩
  have e := congrFun h ix0
  dsimp only [fn, fn_part1, fn_part2, fn_part3] at e

  obtain ⟨e47, e50⟩ := IntOp.andi_eq_one.1 e
  obtain ⟨-, e46⟩ := IntOp.andi_eq_one.1 e47
  have hge := Host.reduce_andi_all _ _ _ _ ix0 e46 j
  have hlt := Host.reduce_andi_all _ _ _ _ ix0 e50 j
  have hge' : IntOp.cmpi .sge (x1 j) 0#32 = 1#1 := hge
  have hlt' : IntOp.cmpi .slt (x1 j) 10000#32 = 1#1 := hlt
  have h0 := IntOp.cmpi_sge.1 hge'
  have h1 := IntOp.cmpi_slt.1 hlt'
  rw [toInt_zero32] at h0
  rw [toInt_tenThousand32] at h1
  exact ⟨h0, h1⟩

theorem edges_of_pre [Cert.Pre_finite_inputs.Facts]
    (x0 : (⟨2, ![10000, 384]⟩ : Shape).Idx → EReal) (x1 : (⟨2, ![2, 320000]⟩ : Shape).Idx → BitVec 32)
    (x2 : (⟨2, ![256, 384]⟩ : Shape).Idx → EReal) (x3 : (⟨1, ![256]⟩ : Shape).Idx → EReal)
    (x4 : (⟨2, ![128, 256]⟩ : Shape).Idx → EReal) (x5 : (⟨1, ![128]⟩ : Shape).Idx → EReal)
    (x6 : (⟨2, ![64, 128]⟩ : Shape).Idx → EReal) (x7 : (⟨1, ![64]⟩ : Shape).Idx → EReal)
    (x8 : (⟨2, ![1, 64]⟩ : Shape).Idx → EReal) (x9 : (⟨1, ![1]⟩ : Shape).Idx → EReal)
    (h : Cert.Pre_finite_inputs.fn (F := Ideal) x0 x1 x2 x3 x4 x5 x6 x7 x8 x9 = fun _ => 1#1) :
    ∃ s t : Fin 320000 → Fin 10000,
      (∀ e : Fin 320000, (x1 (ValueIdx.ix2 (0 : Fin 2) e)).toInt = ((s e).val : ℤ))
      ∧ (∀ e : Fin 320000, (x1 (ValueIdx.ix2 (1 : Fin 2) e)).toInt = ((t e).val : ℤ)) := by
  have hr := word_range (F := Ideal) x0 x1 x2 x3 x4 x5 x6 x7 x8 x9 h
  refine ⟨fun e => ⟨(x1 (ix2 (0 : Fin 2) e)).toInt.toNat, ?_⟩, fun e => ⟨(x1 (ix2 (1 : Fin 2) e)).toInt.toNat, ?_⟩,
    fun e => ?_, fun e => ?_⟩
  · have := hr (ix2 (0 : Fin 2) e); omega
  · have := hr (ix2 (1 : Fin 2) e); omega
  · exact (Int.toNat_of_nonneg (hr (ix2 (0 : Fin 2) e)).1).symm
  · exact (Int.toNat_of_nonneg (hr (ix2 (1 : Fin 2) e)).1).symm

end Cert.PreFacts

end
-- ==== Proof.lean ====
import proofs.«424795_j47278999994618_2_alg».proof.Defs
import proofs.«424795_j47278999994618_2_alg».proof.Proof.Gen.Kernel
import proofs.«424795_j47278999994618_2_alg».proof.Proof.Gen.KernelIdeal
import proofs.«424795_j47278999994618_2_alg».proof.Proof.Gen.ReferenceIdeal
import proofs.«424795_j47278999994618_2_alg».proof.Proof.Gen.Pre_finite_inputs
import proofs.«424795_j47278999994618_2_alg».proof.Proof.KI.Chain
import proofs.«424795_j47278999994618_2_alg».proof.Proof.Same
import proofs.«424795_j47278999994618_2_alg».proof.Proof.RefVal
import proofs.«424795_j47278999994618_2_alg».proof.Proof.PreFacts
import Idealize.ShloMosaic.Adequacy
import Idealize.ShloMosaic.Init

noncomputable section

namespace Cert.Proof

open Idealize.ShloMosaic Idealize.ShloMosaic.ValueIdx Idealize.SL.Sem

-- The two kernel programs are one text under two names, so the frame proved for that text at any float instance serves both.
set_option maxHeartbeats 10000000 in
theorem frame_k : Cert.frame_Kernel := fun m ρ _ => by
  rw [defs_same, main_same]
  exact Cert.KernelIdeal.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal in
theorem algebraic : Cert.algebraic_KernelIdeal_ReferenceIdeal := by
  intro m ρ m' ρ' hpre hagree
  have hed : ∀ c : Dev nD, ∃ s t : Fin 320000 → Fin 10000,
      (∀ e : Fin 320000, (m ((c.tc : Thread nD τ).loc main_arg1) (ix2 (0 : Fin 2) e)).toInt = ((s e).val : ℤ))
      ∧ (∀ e : Fin 320000, (m ((c.tc : Thread nD τ).loc main_arg1) (ix2 (1 : Fin 2) e)).toInt = ((t e).val : ℤ)) :=
    fun c => Cert.PreFacts.edges_of_pre _ _ _ _ _ _ _ _ _ _ (hpre c)
  choose s t hs ht using hed
  refine ⟨fun c => Cert.Spec.outArr (s c) (t c)
      (m ((c.tc : Thread nD τ).loc main_arg0)) (m ((c.tc : Thread nD τ).loc main_arg2))
      (m ((c.tc : Thread nD τ).loc main_arg3)) (m ((c.tc : Thread nD τ).loc main_arg4))
      (m ((c.tc : Thread nD τ).loc main_arg5)),
    fun c => Cert.Spec.attArr (s c) (t c)
      (m ((c.tc : Thread nD τ).loc main_arg0)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)), ?_, ?_⟩
  ·
    refine (θ_run Cert.KernelIdeal.defs _ _).mono (fun r h c => ?_) (Cert.KernelIdeal.Hand.run_all (F := Ideal) m ρ)
    exact ⟨(h c _ (Cert.KernelIdeal.Hand.mem_uc main_v39 (by decide))).trans (Cert.KernelIdeal.Val.kout_eq m c (s c) (t c) (hs c) (ht c)),
      (h c _ (Cert.KernelIdeal.Hand.mem_uc main_v40 (by decide))).trans (Cert.KernelIdeal.Val.katt_eq m c (s c) (t c) (hs c) (ht c)),
      Cert.KernelIdeal.Hand.args_kept m c r.2.mem (h c)⟩
  ·
    refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9⟩ := hagree c
      rw [Cert.RefVal.res_out_eq (s c) (t c) m' c (by rw [e1]; exact hs c) (by rw [e1]; exact ht c), e0, e2, e3, e4, e5]
    · obtain ⟨e0, e1, e2, e3, e4, e5, e6, e7, e8, e9⟩ := hagree c
      rw [Cert.RefVal.res_att_eq (s c) (t c) m' c (by rw [e1]; exact hs c) (by rw [e1]; exact ht c), e0, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
